-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v31) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S256x512 : Shape := ⟨2, ![256, 512]⟩
abbrev S256x1 : Shape := ⟨2, ![256, 1]⟩
abbrev S1x256 : Shape := ⟨2, ![1, 256]⟩
abbrev S256 : Shape := ⟨1, ![256]⟩
abbrev S512x256 : Shape := ⟨2, ![512, 256]⟩
abbrev S256x256 : Shape := ⟨2, ![256, 256]⟩
abbrev S_ : Shape := ⟨0, ![]⟩

abbrev nBuf : Space → Nat
  | .hbm => 54
  | .vmem => 39
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .i1⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1, .i32⟩
  | .local _ .vmem, ⟨5, _⟩ => ⟨S256x1, .i32⟩
  | .local _ .vmem, ⟨6, _⟩ => ⟨S1x256, .i32⟩
  | .local _ .vmem, ⟨7, _⟩ => ⟨S1x256, .i32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S256x1, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x1, .i32⟩
  | .local _ .vmem, ⟨28, _⟩ => ⟨S256x1, .i32⟩
  | .local _ .vmem, ⟨29, _⟩ => ⟨S1x256, .i32⟩
  | .local _ .vmem, ⟨30, _⟩ => ⟨S1x256, .i32⟩
  | .local _ .vmem, ⟨31, _⟩ => ⟨S256x1, .f32⟩
  | .local _ .vmem, ⟨32, _⟩ => ⟨S256x1, .f32⟩
  | .local _ .vmem, ⟨33, _⟩ => ⟨S256x1, .f32⟩
  | .local _ .vmem, ⟨34, _⟩ => ⟨S256x1, .f32⟩
  | .local _ .vmem, ⟨35, _⟩ => ⟨S256x1, .f32⟩
  | .local _ .vmem, ⟨36, _⟩ => ⟨S256x1, .f32⟩
  | .local _ .vmem, ⟨37, _⟩ => ⟨S256x1, .f32⟩
  | .local _ .vmem, ⟨38, _⟩ => ⟨S256x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_cst_10 : Ref sig .tc := ⟨.hbm, 49, rfl⟩
abbrev main_v29 : Ref sig .tc := ⟨.hbm, 50, rfl⟩
abbrev main_cst_11 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg6_1 : Ref sig .tc := ⟨.vmem, 36, rfl⟩
abbrev cc1_scratch0 : Ref sig .tc := ⟨.vmem, 37, rfl⟩
abbrev cc1_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v88 : BitVec 1 := Scalar.cmpi .eq arg1 c15_i32
  let v89 : BitVec 32 := Scalar.extui v88
  let c0_i32_43 : BitVec 32 := 0#32
  let v90 : BitVec 1 := Scalar.cmpi .ne v89 c0_i32_43
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v57 : BitVec 1 := Scalar.cmpi .eq arg1 c15_i32
  let v58 : BitVec 32 := Scalar.extui v57
  let c0_i32_27 : BitVec 32 := 0#32
  let v59 : BitVec 1 := Scalar.cmpi .ne v58 c0_i32_27
  v59

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S4096_S4096x1 : S4096.ShapeCasts S4096x1
  shapeCasts_S4096_S1x4096 : S4096.ShapeCasts S1x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  bitsLt_bf16_f32 : FTy.bits .bf16 < FTy.bits .f32
  transposes_S256x512_p1_0_S512x256 : S256x512.Transposes [1, 0] S512x256
  shapeCasts_S256_S1x256 : S256.ShapeCasts S1x256
  broadcasts_S256x1_S256x256 : S256x1.Broadcasts S256x256
  broadcasts_S1x256_S256x256 : S1x256.Broadcasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S256x256_d0_w32 : S256x256.Iotas .tc 32 [0]
  iota_S256x256_d1_w32 : S256x256.Iotas .tc 32 [1]
  reduces_S256x256_S256 : S256x256.Reduces [1] S256
  natLt_1_32 : 1 < 32
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S4096x512.size a
  hwx0_1 : ∀ i : grid0.Coords, EltTy.bits .f32 = 32 ∨ (Rect.block (s := S4096x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .i32 = 32 ∨ (Rect.block (s := S4096x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .i32 = 32 ∨ (Rect.block (s := S1x4096) S1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S4096x1.size a
  hwx0_7 : ∀ i : grid0.Coords, EltTy.bits .f32 = 32 ∨ (Rect.block (s := S4096x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S4096x1.size a
  hwx0_8 : ∀ i : grid0.Coords, EltTy.bits .f32 = 32 ∨ (Rect.block (s := S4096x1) S256x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x512.size a
  hwx1_0 : ∀ i : grid1.Coords, EltTy.bits .f32 = 32 ∨ (Rect.block (s := S4096x512) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S4096x512.size a
  hwx1_1 : ∀ i : grid1.Coords, EltTy.bits .f32 = 32 ∨ (Rect.block (s := S4096x512) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .i32 = 32 ∨ (Rect.block (s := S4096x1) S256x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x4096.size a
  hwx1_3 : ∀ i : grid1.Coords, EltTy.bits .i32 = 32 ∨ (Rect.block (s := S1x4096) S1x256.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S4096x1.size a
  hwx1_4 : ∀ i : grid1.Coords, EltTy.bits .f32 = 32 ∨ (Rect.block (s := S4096x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S4096x1.size a
  hwx1_5 : ∀ i : grid1.Coords, EltTy.bits .f32 = 32 ∨ (Rect.block (s := S4096x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S4096x1.size a
  hwx1_6 : ∀ i : grid1.Coords, EltTy.bits .f32 = 32 ∨ (Rect.block (s := S4096x1) S256x1.size (cc1_transform_6 i) (hinb1_6 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S256x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S256x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_4) S256x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_arg0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S256x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S256x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S512x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S4096x4096, .i1⟩
  | .hbm, ⟨33, _⟩ => ⟨S4096x4096, .i1⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x4096, .f32⟩
  | .hbm, ⟨46, _⟩ => ⟨S4096x4096, .i1⟩
  | .hbm, ⟨47, _⟩ => ⟨S4096x4096, .i1⟩
  | .hbm, ⟨48, _⟩ => ⟨S4096x4096, .i32⟩
  | .hbm, ⟨49, _⟩ => ⟨S_, .i32⟩
  | .hbm, ⟨50, _⟩ => ⟨S4096, .i32⟩
  | .hbm, ⟨51, _⟩ => ⟨S_, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .f32⟩
  | .hbm, ⟨61, _⟩ => ⟨S4096, .f32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4096, .i32⟩
  | .hbm, ⟨78, _⟩ => ⟨S_, .i32⟩
  | .hbm, ⟨79, _⟩ => ⟨S_, .i32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S4096x4096, .f32⟩
  | .hbm, ⟨88, _⟩ => ⟨S4096x4096, .f32⟩
  | .hbm, ⟨89, _⟩ => ⟨S_, .f32⟩
  | .hbm, ⟨90, _⟩ => ⟨S_, .f32⟩
  | .hbm, ⟨91, _⟩ => ⟨S4096x4096, .i32⟩
  | .hbm, ⟨92, _⟩ => ⟨S_, .i32⟩
  | .hbm, ⟨93, _⟩ => ⟨S_, .i32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S4096x4096, .f32⟩
  | .hbm, ⟨99, _⟩ => ⟨S4096x4096, .f32⟩
  | .hbm, ⟨100, _⟩ => ⟨S_, .f32⟩
  | .hbm, ⟨101, _⟩ => ⟨S_, .f32⟩
  | .hbm, ⟨102, _⟩ => ⟨S4096x4096, .i32⟩
  | .hbm, ⟨103, _⟩ => ⟨S_, .i32⟩
  | .hbm, ⟨104, _⟩ => ⟨S_, .i32⟩
  | .hbm, ⟨105, _⟩ => ⟨S_, .f32⟩
  | .hbm, ⟨106, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_cst_6 : Ref sig .tc := ⟨.hbm, 51, rfl⟩
abbrev main_call2_v0 : Ref sig .tc := ⟨.hbm, 52, rfl⟩
abbrev main_call2_v1 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_call3_v0 : Ref sig .tc := ⟨.hbm, 70, rfl⟩
abbrev main_call3_v1 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_v51 : Ref sig .tc := ⟨.hbm, 77, rfl⟩
abbrev main_c_14 : Ref sig .tc := ⟨.hbm, 78, rfl⟩
abbrev main_v52 : Ref sig .tc := ⟨.hbm, 79, rfl⟩
abbrev main_v53 : Ref sig .tc := ⟨.hbm, 80, rfl⟩
abbrev main_cst_15 : Ref sig .tc := ⟨.hbm, 81, rfl⟩
abbrev main_v54 : Ref sig .tc := ⟨.hbm, 82, rfl⟩
abbrev main_cst_16 : Ref sig .tc := ⟨.hbm, 83, rfl⟩
abbrev main_v55 : Ref sig .tc := ⟨.hbm, 84, rfl⟩
abbrev main_cst_17 : Ref sig .tc := ⟨.hbm, 85, rfl⟩
abbrev main_call4_v0 : Ref sig .tc := ⟨.hbm, 86, rfl⟩
abbrev main_call4_v1 : Ref sig .tc := ⟨.hbm, 87, rfl⟩
abbrev main_v56 : Ref sig .tc := ⟨.hbm, 88, rfl⟩
abbrev main_cst_18 : Ref sig .tc := ⟨.hbm, 89, rfl⟩
abbrev main_v57 : Ref sig .tc := ⟨.hbm, 90, rfl⟩
abbrev main_v58 : Ref sig .tc := ⟨.hbm, 91, rfl⟩
abbrev main_c_19 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_20 : Ref sig .tc := ⟨.hbm, 96, rfl⟩
abbrev main_call5_v0 : Ref sig .tc := ⟨.hbm, 97, rfl⟩
abbrev main_call5_v1 : Ref sig .tc := ⟨.hbm, 98, rfl⟩
abbrev main_v62 : Ref sig .tc := ⟨.hbm, 99, rfl⟩
abbrev main_cst_21 : Ref sig .tc := ⟨.hbm, 100, rfl⟩
abbrev main_v63 : Ref sig .tc := ⟨.hbm, 101, rfl⟩
abbrev main_v64 : Ref sig .tc := ⟨.hbm, 102, rfl⟩
abbrev main_c_22 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  bcast_S_S4096x1 : S_.BroadcastsInDim S4096x1 (![] : Fin 0 → Fin S4096x1.rank)
  natLt_1_32 : 1 < 32
  bcast_S_S4096 : S_.BroadcastsInDim S4096 (![] : Fin 0 → Fin S4096.rank)
  reducesTo_S4096_S_d0 : S4096.ReducesTo [0] S_
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.K.Base.lean ====
import proofs.«105460_j37082747634119_1_alg».proof.Proof.Gen.Kernel.Launch
import proofs.«105460_j37082747634119_1_alg».proof.Proof.Gen.Kernel.Skeleton
import proofs.«105460_j37082747634119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬ t.val % 16 = 15 → cfg0.idle 4 (grid0.coords t) = true :=
  (by decide +kernel : ∀ t : Fin grid0.N, ¬ t.val % 16 = 15 → cfg0.idle 4 (grid0.coords t) = true)
theorem noFlush0_4 : ∀ t : Fin cfg0.N, ¬ t.val % 16 = 15 → (cfg0.win 4).flush t = false :=
  (by decide +kernel : ∀ t : Fin grid0.N, ¬ t.val % 16 = 15 → win0_4.flush t = false)
theorem liveAt0_4_C : ∀ t : Fin cfg0.N, t.val % 16 = 15 → cfg0.idle 4 (grid0.coords t) = false :=
  (by decide +kernel : ∀ t : Fin grid0.N, t.val % 16 = 15 → cfg0.idle 4 (grid0.coords t) = false)
theorem idleAt0_5 : ∀ t : Fin cfg0.N, ¬ t.val % 16 = 15 → cfg0.idle 5 (grid0.coords t) = true :=
  (by decide +kernel : ∀ t : Fin grid0.N, ¬ t.val % 16 = 15 → cfg0.idle 5 (grid0.coords t) = true)
theorem noFlush0_5 : ∀ t : Fin cfg0.N, ¬ t.val % 16 = 15 → (cfg0.win 5).flush t = false :=
  (by decide +kernel : ∀ t : Fin grid0.N, ¬ t.val % 16 = 15 → win0_5.flush t = false)
theorem liveAt0_5_C : ∀ t : Fin cfg0.N, t.val % 16 = 15 → cfg0.idle 5 (grid0.coords t) = false :=
  (by decide +kernel : ∀ t : Fin grid0.N, t.val % 16 = 15 → cfg0.idle 5 (grid0.coords t) = false)
theorem idleAt0_6 : ∀ t : Fin cfg0.N, ¬ t.val % 16 = 15 → cfg0.idle 6 (grid0.coords t) = true :=
  (by decide +kernel : ∀ t : Fin grid0.N, ¬ t.val % 16 = 15 → cfg0.idle 6 (grid0.coords t) = true)
theorem noFlush0_6 : ∀ t : Fin cfg0.N, ¬ t.val % 16 = 15 → (cfg0.win 6).flush t = false :=
  (by decide +kernel : ∀ t : Fin grid0.N, ¬ t.val % 16 = 15 → win0_6.flush t = false)
theorem liveAt0_6_C : ∀ t : Fin cfg0.N, t.val % 16 = 15 → cfg0.idle 6 (grid0.coords t) = false :=
  (by decide +kernel : ∀ t : Fin grid0.N, t.val % 16 = 15 → cfg0.idle 6 (grid0.coords t) = false)
theorem idleAt0_7 : ∀ t : Fin cfg0.N, ¬ t.val % 16 = 15 → cfg0.idle 7 (grid0.coords t) = true :=
  (by decide +kernel : ∀ t : Fin grid0.N, ¬ t.val % 16 = 15 → cfg0.idle 7 (grid0.coords t) = true)
theorem noFlush0_7 : ∀ t : Fin cfg0.N, ¬ t.val % 16 = 15 → (cfg0.win 7).flush t = false :=
  (by decide +kernel : ∀ t : Fin grid0.N, ¬ t.val % 16 = 15 → win0_7.flush t = false)
theorem liveAt0_7_C : ∀ t : Fin cfg0.N, t.val % 16 = 15 → cfg0.idle 7 (grid0.coords t) = false :=
  (by decide +kernel : ∀ t : Fin grid0.N, t.val % 16 = 15 → cfg0.idle 7 (grid0.coords t) = false)
theorem idleAt0_8 : ∀ t : Fin cfg0.N, ¬ t.val % 16 = 15 → cfg0.idle 8 (grid0.coords t) = true :=
  (by decide +kernel : ∀ t : Fin grid0.N, ¬ t.val % 16 = 15 → cfg0.idle 8 (grid0.coords t) = true)
theorem noFlush0_8 : ∀ t : Fin cfg0.N, ¬ t.val % 16 = 15 → (cfg0.win 8).flush t = false :=
  (by decide +kernel : ∀ t : Fin grid0.N, ¬ t.val % 16 = 15 → win0_8.flush t = false)
theorem liveAt0_8_C : ∀ t : Fin cfg0.N, t.val % 16 = 15 → cfg0.idle 8 (grid0.coords t) = false :=
  (by decide +kernel : ∀ t : Fin grid0.N, t.val % 16 = 15 → cfg0.idle 8 (grid0.coords t) = false)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬ t.val % 16 = 15 → cfg1.idle 5 (grid1.coords t) = true :=
  (by decide +kernel : ∀ t : Fin grid1.N, ¬ t.val % 16 = 15 → cfg1.idle 5 (grid1.coords t) = true)
theorem noFlush1_5 : ∀ t : Fin cfg1.N, ¬ t.val % 16 = 15 → (cfg1.win 5).flush t = false :=
  (by decide +kernel : ∀ t : Fin grid1.N, ¬ t.val % 16 = 15 → win1_5.flush t = false)
theorem liveAt1_5_C : ∀ t : Fin cfg1.N, t.val % 16 = 15 → cfg1.idle 5 (grid1.coords t) = false :=
  (by decide +kernel : ∀ t : Fin grid1.N, t.val % 16 = 15 → cfg1.idle 5 (grid1.coords t) = false)
theorem idleAt1_6 : ∀ t : Fin cfg1.N, ¬ t.val % 16 = 15 → cfg1.idle 6 (grid1.coords t) = true :=
  (by decide +kernel : ∀ t : Fin grid1.N, ¬ t.val % 16 = 15 → cfg1.idle 6 (grid1.coords t) = true)
theorem noFlush1_6 : ∀ t : Fin cfg1.N, ¬ t.val % 16 = 15 → (cfg1.win 6).flush t = false :=
  (by decide +kernel : ∀ t : Fin grid1.N, ¬ t.val % 16 = 15 → win1_6.flush t = false)
theorem liveAt1_6_C : ∀ t : Fin cfg1.N, t.val % 16 = 15 → cfg1.idle 6 (grid1.coords t) = false :=
  (by decide +kernel : ∀ t : Fin grid1.N, t.val % 16 = 15 → cfg1.idle 6 (grid1.coords t) = false)

abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1 .f32 := win0_8.stage (cfg0.slots t 8)
abbrev hs0_8 (t : Fin cfg0.N) : (ms0_8 t).IsWhole := hstage0_8 ((cfg0.slots t 8).cast nbuf0_8)
abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x1 .f32 := win1_6.stage (cfg1.slots t 6)
abbrev hs1_6 (t : Fin cfg1.N) : (ms1_6 t).IsWhole := hstage1_6 ((cfg1.slots t 6).cast nbuf1_6)
abbrev scM0_0 : Memref sig .tc .vmem S256x1 .f32 := Memref.whole cc0_scratch0
abbrev scM0_1 : Memref sig .tc .vmem S256x1 .f32 := Memref.whole cc0_scratch1
abbrev scM0_2 : Memref sig .tc .vmem S256x1 .f32 := Memref.whole cc0_scratch2
abbrev scM0_3 : Memref sig .tc .vmem S256x1 .f32 := Memref.whole cc0_scratch3
abbrev scM0_4 : Memref sig .tc .vmem S256x1 .f32 := Memref.whole cc0_scratch4
abbrev scM1_0 : Memref sig .tc .vmem S256x1 .f32 := Memref.whole cc1_scratch0
abbrev scM1_1 : Memref sig .tc .vmem S256x1 .f32 := Memref.whole cc1_scratch1

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ rest0 c) ∗ (∃ r, prngReg c r)) := by
  unfold Pipeline.ΦA rest0; rw [scopedRest0_eq]; simp only [scM0_0, scM0_1, scM0_2, scM0_3, scM0_4, owns_whole]; try rfl

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

section Blocks
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.K.Run0A.lean ====
import proofs.«105460_j37082747634119_1_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i)
    (x0 : Vec F S256x512 .f32) (x1 : Vec F S256x512 .f32) (x2 : Vec F S256x1 .i32) (x3 : Vec F S1x256 .i32) :
    Σ' (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (xi4 : Vec F S256x1 .f32) (xi5 : Vec F S256x1 .f32) (xi6 : Vec F S256x1 .f32) (xi7 : Vec F S256x1 .f32) (xi8 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0_pass1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi4 xi5 xi6 xi7 xi8 E K => ?run⟩
  case run =>
    simp only [cc0_pass1_kernel_eq_skeleton]; unfold cc0_pass1_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    iexists _; iexact H15

end Cert.Kernel.Hand

end
-- ==== Proof.K.Run0B.lean ====
import proofs.«105460_j37082747634119_1_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i)
    (x0 : Vec F S256x512 .f32) (x1 : Vec F S256x512 .f32) (x2 : Vec F S256x1 .i32) (x3 : Vec F S1x256 .i32) (xs0 : Vec F S256x1 .f32) (xs1 : Vec F S256x1 .f32) (xs2 : Vec F S256x1 .f32) (xs3 : Vec F S256x1 .f32) (xs4 : Vec F S256x1 .f32) :
    Σ' (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (xi4 : Vec F S256x1 .f32) (xi5 : Vec F S256x1 .f32) (xi6 : Vec F S256x1 .f32) (xi7 : Vec F S256x1 .f32) (xi8 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0_pass1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi4 xi5 xi6 xi7 xi8 E K => ?run⟩
  case run =>
    simp only [cc0_pass1_kernel_eq_skeleton]; unfold cc0_pass1_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    iexists _; iexact H15

end Cert.Kernel.Hand

end
-- ==== Proof.K.Run0C.lean ====
import proofs.«105460_j37082747634119_1_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i)
    (x0 : Vec F S256x512 .f32) (x1 : Vec F S256x512 .f32) (x2 : Vec F S256x1 .i32) (x3 : Vec F S1x256 .i32) (xs0 : Vec F S256x1 .f32) (xs1 : Vec F S256x1 .f32) (xs2 : Vec F S256x1 .f32) (xs3 : Vec F S256x1 .f32) (xs4 : Vec F S256x1 .f32) :
    Σ' (L4 : List (View.Piece (Elt F) S256x1 .f32)) (L5 : List (View.Piece (Elt F) S256x1 .f32)) (L6 : List (View.Piece (Elt F) S256x1 .f32)) (L7 : List (View.Piece (Elt F) S256x1 .f32)) (L8 : List (View.Piece (Elt F) S256x1 .f32)) (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0_pass1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, fun E K => ?run⟩
  case run =>
    simp only [cc0_pass1_kernel_eq_skeleton]; unfold cc0_pass1_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.Kernel.Hand

end
-- ==== Proof.K.Region0.lean ====
import proofs.«105460_j37082747634119_1_alg».proof.Proof.K.Run0A
import proofs.«105460_j37082747634119_1_alg».proof.Proof.K.Run0B
import proofs.«105460_j37082747634119_1_alg».proof.Proof.K.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

instance nonemptyElt0 : ∀ e, Nonempty (Elt F e) := fun e => ⟨default⟩

/-- What the body leaves at a point: five output blocks and five accumulators. -/
structure St0 (F : FTy → Type) [FloatOps F] where
  o4 : Vec F S256x1 .f32
  o5 : Vec F S256x1 .f32
  o6 : Vec F S256x1 .f32
  o7 : Vec F S256x1 .f32
  o8 : Vec F S256x1 .f32
  s0 : Vec F S256x1 .f32
  s1 : Vec F S256x1 .f32
  s2 : Vec F S256x1 .f32
  s3 : Vec F S256x1 .f32
  s4 : Vec F S256x1 .f32

def idleOut0 : Vec F S256x1 .f32 := View.canon ([] : List (View.Piece (Elt F) S256x1 .f32))

/-- A whole buffer written through pieces that cover it holds the pieces' canonical contents. -/
theorem owns_of_writes (c : Dev nD) (M : Memref sig .tc .vmem S256x1 .f32) (L : List (View.Piece (Elt F) S256x1 .f32))
    (hL : ∀ y, ∃ pc ∈ L, y ∈ pc.1.set) {d : Vec F S256x1 .f32} (hd : View.canon L = d) :
    (iprop(∃ f, M.view.loc (c : Thread nD τ) ↦[M.view.set]{fullShare} M.view.writes (Elt F) f L) : sProp 𝕄)
      ⊢ owns (c : Thread nD τ) M fullShare d := by
  subst hd
  unfold owns
  iintro ⟨%f, H⟩
  iexists _; isplitr
  swap; · iexact H
  ipureintro; exact View.read_writes_eq_canon _ _ _ hL

section Cases
variable (c : Dev nD) (t : Fin cfg0.N) (x0 x1 : Vec F S256x512 .f32) (x2 : Vec F S256x1 .i32) (x3 : Vec F S1x256 .i32)

/-- The body run at point `t` on the point's own buffers, by column block: first, inner, last. -/
def run0A (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) x0 x1 x2 x3
def run0B (h0 : ¬t.val % 16 = 0) (h1 : ¬t.val % 16 = 15) (p : St0 F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) x0 x1 x2 x3 p.s0 p.s1 p.s2 p.s3 p.s4
def run0C (h0 : ¬t.val % 16 = 0) (h1 : t.val % 16 = 15) (p : St0 F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) x0 x1 x2 x3 p.s0 p.s1 p.s2 p.s3 p.s4

end Cases

section Region
variable (V : (c : Dev nD) → (b : Ref sig .tc) → Buf (Elt F) ((c : Thread nD τ).loc b))

/-- What each case leaves, run on the point's input blocks. -/
def stA0 (c : Dev nD) (t : Fin cfg0.N) (h0 : t.val % 16 = 0) (h1 : ¬t.val % 16 = 15) : St0 F where
  o4 := idleOut0
  o5 := idleOut0
  o6 := idleOut0
  o7 := idleOut0
  o8 := idleOut0
  s0 := View.canon (run0A c t (iblk0 V c 0 t) (iblk0 V c 1 t) (iblk0 V c 2 t) (iblk0 V c 3 t) h0 h1).1
  s1 := View.canon (run0A c t (iblk0 V c 0 t) (iblk0 V c 1 t) (iblk0 V c 2 t) (iblk0 V c 3 t) h0 h1).2.1
  s2 := View.canon (run0A c t (iblk0 V c 0 t) (iblk0 V c 1 t) (iblk0 V c 2 t) (iblk0 V c 3 t) h0 h1).2.2.1
  s3 := View.canon (run0A c t (iblk0 V c 0 t) (iblk0 V c 1 t) (iblk0 V c 2 t) (iblk0 V c 3 t) h0 h1).2.2.2.1
  s4 := View.canon (run0A c t (iblk0 V c 0 t) (iblk0 V c 1 t) (iblk0 V c 2 t) (iblk0 V c 3 t) h0 h1).2.2.2.2.1
def stB0 (c : Dev nD) (t : Fin cfg0.N) (h0 : ¬t.val % 16 = 0) (h1 : ¬t.val % 16 = 15) (p : St0 F) : St0 F where
  o4 := idleOut0
  o5 := idleOut0
  o6 := idleOut0
  o7 := idleOut0
  o8 := idleOut0
  s0 := View.canon (run0B c t (iblk0 V c 0 t) (iblk0 V c 1 t) (iblk0 V c 2 t) (iblk0 V c 3 t) h0 h1 p).1
  s1 := View.canon (run0B c t (iblk0 V c 0 t) (iblk0 V c 1 t) (iblk0 V c 2 t) (iblk0 V c 3 t) h0 h1 p).2.1
  s2 := View.canon (run0B c t (iblk0 V c 0 t) (iblk0 V c 1 t) (iblk0 V c 2 t) (iblk0 V c 3 t) h0 h1 p).2.2.1
  s3 := View.canon (run0B c t (iblk0 V c 0 t) (iblk0 V c 1 t) (iblk0 V c 2 t) (iblk0 V c 3 t) h0 h1 p).2.2.2.1
  s4 := View.canon (run0B c t (iblk0 V c 0 t) (iblk0 V c 1 t) (iblk0 V c 2 t) (iblk0 V c 3 t) h0 h1 p).2.2.2.2.1
def stC0 (c : Dev nD) (t : Fin cfg0.N) (h0 : ¬t.val % 16 = 0) (h1 : t.val % 16 = 15) (p : St0 F) : St0 F where
  o4 := View.canon (run0C c t (iblk0 V c 0 t) (iblk0 V c 1 t) (iblk0 V c 2 t) (iblk0 V c 3 t) h0 h1 p).1
  o5 := View.canon (run0C c t (iblk0 V c 0 t) (iblk0 V c 1 t) (iblk0 V c 2 t) (iblk0 V c 3 t) h0 h1 p).2.1
  o6 := View.canon (run0C c t (iblk0 V c 0 t) (iblk0 V c 1 t) (iblk0 V c 2 t) (iblk0 V c 3 t) h0 h1 p).2.2.1
  o7 := View.canon (run0C c t (iblk0 V c 0 t) (iblk0 V c 1 t) (iblk0 V c 2 t) (iblk0 V c 3 t) h0 h1 p).2.2.2.1
  o8 := View.canon (run0C c t (iblk0 V c 0 t) (iblk0 V c 1 t) (iblk0 V c 2 t) (iblk0 V c 3 t) h0 h1 p).2.2.2.2.1
  s0 := View.canon (run0C c t (iblk0 V c 0 t) (iblk0 V c 1 t) (iblk0 V c 2 t) (iblk0 V c 3 t) h0 h1 p).2.2.2.2.2.1
  s1 := View.canon (run0C c t (iblk0 V c 0 t) (iblk0 V c 1 t) (iblk0 V c 2 t) (iblk0 V c 3 t) h0 h1 p).2.2.2.2.2.2.1
  s2 := View.canon (run0C c t (iblk0 V c 0 t) (iblk0 V c 1 t) (iblk0 V c 2 t) (iblk0 V c 3 t) h0 h1 p).2.2.2.2.2.2.2.1
  s3 := View.canon (run0C c t (iblk0 V c 0 t) (iblk0 V c 1 t) (iblk0 V c 2 t) (iblk0 V c 3 t) h0 h1 p).2.2.2.2.2.2.2.2.1
  s4 := View.canon (run0C c t (iblk0 V c 0 t) (iblk0 V c 1 t) (iblk0 V c 2 t) (iblk0 V c 3 t) h0 h1 p).2.2.2.2.2.2.2.2.2.1

-- The pieces a case stores into a buffer tile it.
section
variable (c : Dev nD) (t : Fin cfg0.N) (h0 : t.val % 16 = 0) (h1 : ¬t.val % 16 = 15) (y : S256x1.Idx)
theorem scover0_A_0 : ∃ pc ∈ (run0A c t (iblk0 V c 0 t) (iblk0 V c 1 t) (iblk0 V c 2 t) (iblk0 V c 3 t) h0 h1).1, y ∈ pc.1.set := View.cover_of_tiledL _ S256x1.size (by sl_kernel_rfl) y
theorem scover0_A_1 : ∃ pc ∈ (run0A c t (iblk0 V c 0 t) (iblk0 V c 1 t) (iblk0 V c 2 t) (iblk0 V c 3 t) h0 h1).2.1, y ∈ pc.1.set := View.cover_of_tiledL _ S256x1.size (by sl_kernel_rfl) y
theorem scover0_A_2 : ∃ pc ∈ (run0A c t (iblk0 V c 0 t) (iblk0 V c 1 t) (iblk0 V c 2 t) (iblk0 V c 3 t) h0 h1).2.2.1, y ∈ pc.1.set := View.cover_of_tiledL _ S256x1.size (by sl_kernel_rfl) y
theorem scover0_A_3 : ∃ pc ∈ (run0A c t (iblk0 V c 0 t) (iblk0 V c 1 t) (iblk0 V c 2 t) (iblk0 V c 3 t) h0 h1).2.2.2.1, y ∈ pc.1.set := View.cover_of_tiledL _ S256x1.size (by sl_kernel_rfl) y
theorem scover0_A_4 : ∃ pc ∈ (run0A c t (iblk0 V c 0 t) (iblk0 V c 1 t) (iblk0 V c 2 t) (iblk0 V c 3 t) h0 h1).2.2.2.2.1, y ∈ pc.1.set := View.cover_of_tiledL _ S256x1.size (by sl_kernel_rfl) y
end
section
variable (c : Dev nD) (t : Fin cfg0.N) (h0 : ¬t.val % 16 = 0) (h1 : ¬t.val % 16 = 15) (p : St0 F) (y : S256x1.Idx)
theorem scover0_B_0 : ∃ pc ∈ (run0B c t (iblk0 V c 0 t) (iblk0 V c 1 t) (iblk0 V c 2 t) (iblk0 V c 3 t) h0 h1 p).1, y ∈ pc.1.set := View.cover_of_tiledL _ S256x1.size (by sl_kernel_rfl) y
theorem scover0_B_1 : ∃ pc ∈ (run0B c t (iblk0 V c 0 t) (iblk0 V c 1 t) (iblk0 V c 2 t) (iblk0 V c 3 t) h0 h1 p).2.1, y ∈ pc.1.set := View.cover_of_tiledL _ S256x1.size (by sl_kernel_rfl) y
theorem scover0_B_2 : ∃ pc ∈ (run0B c t (iblk0 V c 0 t) (iblk0 V c 1 t) (iblk0 V c 2 t) (iblk0 V c 3 t) h0 h1 p).2.2.1, y ∈ pc.1.set := View.cover_of_tiledL _ S256x1.size (by sl_kernel_rfl) y
theorem scover0_B_3 : ∃ pc ∈ (run0B c t (iblk0 V c 0 t) (iblk0 V c 1 t) (iblk0 V c 2 t) (iblk0 V c 3 t) h0 h1 p).2.2.2.1, y ∈ pc.1.set := View.cover_of_tiledL _ S256x1.size (by sl_kernel_rfl) y
theorem scover0_B_4 : ∃ pc ∈ (run0B c t (iblk0 V c 0 t) (iblk0 V c 1 t) (iblk0 V c 2 t) (iblk0 V c 3 t) h0 h1 p).2.2.2.2.1, y ∈ pc.1.set := View.cover_of_tiledL _ S256x1.size (by sl_kernel_rfl) y
end
section
variable (c : Dev nD) (t : Fin cfg0.N) (h0 : ¬t.val % 16 = 0) (h1 : t.val % 16 = 15) (p : St0 F) (y : S256x1.Idx)
theorem scover0_C_0 : ∃ pc ∈ (run0C c t (iblk0 V c 0 t) (iblk0 V c 1 t) (iblk0 V c 2 t) (iblk0 V c 3 t) h0 h1 p).2.2.2.2.2.1, y ∈ pc.1.set := View.cover_of_tiledL _ S256x1.size (by sl_kernel_rfl) y
theorem scover0_C_1 : ∃ pc ∈ (run0C c t (iblk0 V c 0 t) (iblk0 V c 1 t) (iblk0 V c 2 t) (iblk0 V c 3 t) h0 h1 p).2.2.2.2.2.2.1, y ∈ pc.1.set := View.cover_of_tiledL _ S256x1.size (by sl_kernel_rfl) y
theorem scover0_C_2 : ∃ pc ∈ (run0C c t (iblk0 V c 0 t) (iblk0 V c 1 t) (iblk0 V c 2 t) (iblk0 V c 3 t) h0 h1 p).2.2.2.2.2.2.2.1, y ∈ pc.1.set := View.cover_of_tiledL _ S256x1.size (by sl_kernel_rfl) y
theorem scover0_C_3 : ∃ pc ∈ (run0C c t (iblk0 V c 0 t) (iblk0 V c 1 t) (iblk0 V c 2 t) (iblk0 V c 3 t) h0 h1 p).2.2.2.2.2.2.2.2.1, y ∈ pc.1.set := View.cover_of_tiledL _ S256x1.size (by sl_kernel_rfl) y
theorem scover0_C_4 : ∃ pc ∈ (run0C c t (iblk0 V c 0 t) (iblk0 V c 1 t) (iblk0 V c 2 t) (iblk0 V c 3 t) h0 h1 p).2.2.2.2.2.2.2.2.2.1, y ∈ pc.1.set := View.cover_of_tiledL _ S256x1.size (by sl_kernel_rfl) y
theorem cover0_C_4 : ∃ pc ∈ (run0C c t (iblk0 V c 0 t) (iblk0 V c 1 t) (iblk0 V c 2 t) (iblk0 V c 3 t) h0 h1 p).1, y ∈ pc.1.set := View.cover_of_tiledL _ S256x1.size (by sl_kernel_rfl) y
theorem cover0_C_5 : ∃ pc ∈ (run0C c t (iblk0 V c 0 t) (iblk0 V c 1 t) (iblk0 V c 2 t) (iblk0 V c 3 t) h0 h1 p).2.1, y ∈ pc.1.set := View.cover_of_tiledL _ S256x1.size (by sl_kernel_rfl) y
theorem cover0_C_6 : ∃ pc ∈ (run0C c t (iblk0 V c 0 t) (iblk0 V c 1 t) (iblk0 V c 2 t) (iblk0 V c 3 t) h0 h1 p).2.2.1, y ∈ pc.1.set := View.cover_of_tiledL _ S256x1.size (by sl_kernel_rfl) y
theorem cover0_C_7 : ∃ pc ∈ (run0C c t (iblk0 V c 0 t) (iblk0 V c 1 t) (iblk0 V c 2 t) (iblk0 V c 3 t) h0 h1 p).2.2.2.1, y ∈ pc.1.set := View.cover_of_tiledL _ S256x1.size (by sl_kernel_rfl) y
theorem cover0_C_8 : ∃ pc ∈ (run0C c t (iblk0 V c 0 t) (iblk0 V c 1 t) (iblk0 V c 2 t) (iblk0 V c 3 t) h0 h1 p).2.2.2.2.1, y ∈ pc.1.set := View.cover_of_tiledL _ S256x1.size (by sl_kernel_rfl) y
end

/-- The state after the body at position `n`: the case the column block selects, over what the point before left. -/
def outsAt0 (c : Dev nD) : (n : ℕ) → n < cfg0.N → St0 F
  | 0, hn => stA0 V c ⟨0, hn⟩ (Nat.zero_mod _) (by show ¬(0 : ℕ) % 16 = 15; decide)
  | n + 1, hn =>
    if h0 : (n + 1) % 16 = 0 then stA0 V c ⟨n + 1, hn⟩ h0 (by show ¬(n + 1) % 16 = 15; omega)
    else if h1 : (n + 1) % 16 = 15 then stC0 V c ⟨n + 1, hn⟩ h0 h1 (outsAt0 c n (Nat.lt_of_succ_lt hn))
    else stB0 V c ⟨n + 1, hn⟩ h0 h1 (outsAt0 c n (Nat.lt_of_succ_lt hn))

abbrev prev0 (c : Dev nD) (t : Fin cfg0.N) : St0 F := outsAt0 V c (t.val - 1) (Nat.lt_of_le_of_lt (Nat.sub_le _ _) t.isLt)

theorem outsAt0_A (c : Dev nD) (t : Fin cfg0.N) (h0 : t.val % 16 = 0) (h1 : ¬t.val % 16 = 15) : outsAt0 V c t.val t.isLt = stA0 V c t h0 h1 := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) : outsAt0 V c t.val t.isLt = stB0 V c t h0 h1 (prev0 V c t) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) : outsAt0 V c t.val t.isLt = stC0 V c t h0 h1 (prev0 V c t) := by
  obtain ⟨n, hn⟩ := t
  cases n with
  | zero => exact absurd (Nat.zero_mod _) h0
  | succ n => exact (dif_neg h0).trans ((dif_pos h1).trans rfl)

/-- The accumulators owned at a state's values, beside the buffers the kernel does not name and the generator register. -/
def accOwn0 (c : Dev nD) (s : St0 F) : sProp 𝕄 :=
  iprop(iprop(owns (c : Thread nD τ) scM0_0 fullShare s.s0 ∗ owns (c : Thread nD τ) scM0_1 fullShare s.s1 ∗ owns (c : Thread nD τ) scM0_2 fullShare s.s2 ∗ owns (c : Thread nD τ) scM0_3 fullShare s.s3 ∗ owns (c : Thread nD τ) scM0_4 fullShare s.s4 ∗ rest0 c) ∗ (∃ r, prngReg c r))

/-- The region invariant before position `n`: the class's before the first point, afterwards the accumulators at what the point before left. -/
def PhiS0 (c : Dev nD) : (n : ℕ) → n ≤ cfg0.N → sProp 𝕄
  | 0, _ => Pipeline.ΦA spec0 c
  | n + 1, hn => accOwn0 c (outsAt0 V c n hn)

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) : PhiS0 V c n h = accOwn0 c (outsAt0 V c (n - 1) (by omega)) := by
  cases n with
  | zero => exact absurd rfl hz
  | succ n => rfl

/-- Owning the accumulators at known values is owning them at some values. -/
theorem accOwn0_weak (c : Dev nD) (s : St0 F) : accOwn0 c s ⊢ Pipeline.ΦA spec0 c := by
  rw [PhiA0_eq]; unfold accOwn0
  iintro ⟨⟨HS0, HS1, HS2, HS3, HS4, Hrest⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexact Hrest
  iexact Hg

theorem PhiS0_weak (c : Dev nD) (n : ℕ) (h : n ≤ cfg0.N) : PhiS0 V c n h ⊢ Pipeline.ΦA spec0 c := by
  cases n with
  | zero => exact .rfl
  | succ n => exact accOwn0_weak c _

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).o4
    | ⟨5, _⟩ => (outsAt0 V c t.val t.isLt).o5
    | ⟨6, _⟩ => (outsAt0 V c t.val t.isLt).o6
    | ⟨7, _⟩ => (outsAt0 V c t.val t.isLt).o7
    | ⟨8, _⟩ => (outsAt0 V c t.val t.isLt).o8
  Φ t := PhiS0 V c t.val (Nat.le_of_lt_succ t.isLt)
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]
theorem after0_8 (c : Dev nD) (t : Fin cfg0.N) : (dat0 V c).after 8 t = (outsAt0 V c t.val t.isLt).o8 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- After the body an input window's buffer still holds the point's block. -/
theorem leaves0_0 (c : Dev nD) (t : Fin cfg0.N) : (dat0 V c).leavesExact 0 t = owns (c : Thread nD τ) (ms0_0 t) fullShare (iblk0 V c 0 t) := by
  rw [← after0_0 V c t]
theorem leaves0_1 (c : Dev nD) (t : Fin cfg0.N) : (dat0 V c).leavesExact 1 t = owns (c : Thread nD τ) (ms0_1 t) fullShare (iblk0 V c 1 t) := by
  rw [← after0_1 V c t]
theorem leaves0_2 (c : Dev nD) (t : Fin cfg0.N) : (dat0 V c).leavesExact 2 t = owns (c : Thread nD τ) (ms0_2 t) fullShare (iblk0 V c 2 t) := by
  rw [← after0_2 V c t]
theorem leaves0_3 (c : Dev nD) (t : Fin cfg0.N) : (dat0 V c).leavesExact 3 t = owns (c : Thread nD τ) (ms0_3 t) fullShare (iblk0 V c 3 t) := by
  rw [← after0_3 V c t]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

end Region

end Cert.Kernel.Hand

end
-- ==== Proof.K.Body0A.lean ====
import proofs.«105460_j37082747634119_1_alg».proof.Proof.K.Region0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 8000000 in
theorem sound_body0_A (c : Dev nD) (t : Fin cfg0.N) (h0 : t.val % 16 = 0) (h1 : ¬t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = accOwn0 c (outsAt0 V c t.val t.isLt) from rfl]
  rw [leaves0_0, leaves0_1, leaves0_2, leaves0_3]
  rw [Dat.leavesExact_idle (dat0 V c) 4 t (idleAt0_4 t h1) (noFlush0_4 t h1)]
  rw [Dat.leavesExact_idle (dat0 V c) 5 t (idleAt0_5 t h1) (noFlush0_5 t h1)]
  rw [Dat.leavesExact_idle (dat0 V c) 6 t (idleAt0_6 t h1) (noFlush0_6 t h1)]
  rw [Dat.leavesExact_idle (dat0 V c) 7 t (idleAt0_7 t h1) (noFlush0_7 t h1)]
  rw [Dat.leavesExact_idle (dat0 V c) 8 t (idleAt0_8 t h1) (noFlush0_8 t h1)]
  rw [outsAt0_A V c t h0 h1]
  unfold stA0 accOwn0; (try dsimp only)
  rw [PhiS0_castSucc V c t]
  refine (sep_mono (PhiS0_weak V c _ _) .rfl).trans ?_
  rw [PhiA0_eq]
  iintro ⟨⟨⟨HS0, HS1, HS2, HS3, HS4, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run0A c t (iblk0 V c 0 t) (iblk0 V c 1 t) (iblk0 V c 2 t) (iblk0 V c 3 t) h0 h1).2.2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hrest Hg]
  · isplitr [Hg]
    · isplitl [HS0]; · iapply owns_of_writes c _ _ (scover0_A_0 V c t h0 h1) rfl; iexact HS0
      isplitl [HS1]; · iapply owns_of_writes c _ _ (scover0_A_1 V c t h0 h1) rfl; iexact HS1
      isplitl [HS2]; · iapply owns_of_writes c _ _ (scover0_A_2 V c t h0 h1) rfl; iexact HS2
      isplitl [HS3]; · iapply owns_of_writes c _ _ (scover0_A_3 V c t h0 h1) rfl; iexact HS3
      isplitl [HS4]; · iapply owns_of_writes c _ _ (scover0_A_4 V c t h0 h1) rfl; iexact HS4
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iexists _; iexact H8

end Region

end Cert.Kernel.Hand

end
-- ==== Proof.K.Body0B.lean ====
import proofs.«105460_j37082747634119_1_alg».proof.Proof.K.Region0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 8000000 in
theorem sound_body0_B (c : Dev nD) (t : Fin cfg0.N) (h0 : ¬t.val % 16 = 0) (h1 : ¬t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = accOwn0 c (outsAt0 V c t.val t.isLt) from rfl]
  rw [leaves0_0, leaves0_1, leaves0_2, leaves0_3]
  rw [Dat.leavesExact_idle (dat0 V c) 4 t (idleAt0_4 t h1) (noFlush0_4 t h1)]
  rw [Dat.leavesExact_idle (dat0 V c) 5 t (idleAt0_5 t h1) (noFlush0_5 t h1)]
  rw [Dat.leavesExact_idle (dat0 V c) 6 t (idleAt0_6 t h1) (noFlush0_6 t h1)]
  rw [Dat.leavesExact_idle (dat0 V c) 7 t (idleAt0_7 t h1) (noFlush0_7 t h1)]
  rw [Dat.leavesExact_idle (dat0 V c) 8 t (idleAt0_8 t h1) (noFlush0_8 t h1)]
  rw [outsAt0_B V c t h0 h1]
  unfold stB0 accOwn0; (try dsimp only)
  have hz : t.val ≠ 0 := fun hz => h0 (by rw [hz])
  rw [PhiS0_castSucc V c t, PhiS0_pos V c _ _ hz]
  unfold accOwn0
  iintro ⟨⟨⟨HS0, HS1, HS2, HS3, HS4, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run0B c t (iblk0 V c 0 t) (iblk0 V c 1 t) (iblk0 V c 2 t) (iblk0 V c 3 t) h0 h1 (prev0 V c t)).2.2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hrest Hg]
  · isplitr [Hg]
    · isplitl [HS0]; · iapply owns_of_writes c _ _ (scover0_B_0 V c t h0 h1 (prev0 V c t)) rfl; iexact HS0
      isplitl [HS1]; · iapply owns_of_writes c _ _ (scover0_B_1 V c t h0 h1 (prev0 V c t)) rfl; iexact HS1
      isplitl [HS2]; · iapply owns_of_writes c _ _ (scover0_B_2 V c t h0 h1 (prev0 V c t)) rfl; iexact HS2
      isplitl [HS3]; · iapply owns_of_writes c _ _ (scover0_B_3 V c t h0 h1 (prev0 V c t)) rfl; iexact HS3
      isplitl [HS4]; · iapply owns_of_writes c _ _ (scover0_B_4 V c t h0 h1 (prev0 V c t)) rfl; iexact HS4
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iexists _; iexact H8

end Region

end Cert.Kernel.Hand

end
-- ==== Proof.K.Body0C.lean ====
import proofs.«105460_j37082747634119_1_alg».proof.Proof.K.Region0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 2000000 in
theorem sound_body0_C (c : Dev nD) (t : Fin cfg0.N) (h0 : ¬t.val % 16 = 0) (h1 : t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = accOwn0 c (outsAt0 V c t.val t.isLt) from rfl]
  rw [leaves0_0, leaves0_1, leaves0_2, leaves0_3]
  rw [show (dat0 V c).leavesExact 4 t = owns (c : Thread nD τ) (ms0_4 t) fullShare ((dat0 V c).after 4 t) from by
    unfold Dat.leavesExact; rw [liveAt0_4_C t h1], after0_4]
  rw [show (dat0 V c).leavesExact 5 t = owns (c : Thread nD τ) (ms0_5 t) fullShare ((dat0 V c).after 5 t) from by
    unfold Dat.leavesExact; rw [liveAt0_5_C t h1], after0_5]
  rw [show (dat0 V c).leavesExact 6 t = owns (c : Thread nD τ) (ms0_6 t) fullShare ((dat0 V c).after 6 t) from by
    unfold Dat.leavesExact; rw [liveAt0_6_C t h1], after0_6]
  rw [show (dat0 V c).leavesExact 7 t = owns (c : Thread nD τ) (ms0_7 t) fullShare ((dat0 V c).after 7 t) from by
    unfold Dat.leavesExact; rw [liveAt0_7_C t h1], after0_7]
  rw [show (dat0 V c).leavesExact 8 t = owns (c : Thread nD τ) (ms0_8 t) fullShare ((dat0 V c).after 8 t) from by
    unfold Dat.leavesExact; rw [liveAt0_8_C t h1], after0_8]
  rw [PhiS0_castSucc V c t, PhiS0_pos V c _ _ (fun hz => h0 (by rw [hz]))]
  unfold accOwn0
  have hS := outsAt0_C V c t h0 h1
  unfold prev0 at hS
  generalize outsAt0 V c t.val t.isLt = S at hS ⊢
  generalize outsAt0 V c (t.val - 1) (Nat.lt_of_le_of_lt (Nat.sub_le _ _) t.isLt) = P at hS ⊢
  iintro ⟨⟨⟨HS0, HS1, HS2, HS3, HS4, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run0C c t (iblk0 V c 0 t) (iblk0 V c 1 t) (iblk0 V c 2 t) (iblk0 V c 3 t) h0 h1 P).2.2.2.2.2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hrest Hg]
  · isplitr [Hg]
    · isplitl [HS0]; · iapply owns_of_writes c _ _ (scover0_C_0 V c t h0 h1 P) (congrArg St0.s0 hS).symm; iexact HS0
      isplitl [HS1]; · iapply owns_of_writes c _ _ (scover0_C_1 V c t h0 h1 P) (congrArg St0.s1 hS).symm; iexact HS1
      isplitl [HS2]; · iapply owns_of_writes c _ _ (scover0_C_2 V c t h0 h1 P) (congrArg St0.s2 hS).symm; iexact HS2
      isplitl [HS3]; · iapply owns_of_writes c _ _ (scover0_C_3 V c t h0 h1 P) (congrArg St0.s3 hS).symm; iexact HS3
      isplitl [HS4]; · iapply owns_of_writes c _ _ (scover0_C_4 V c t h0 h1 P) (congrArg St0.s4 hS).symm; iexact HS4
      iexact Hrest
    iexact Hg
  isplitl [Ho]; · iexact Ho
  isplitl [H0]; · iexact H0
  isplitl [H1]; · iexact H1
  isplitl [H2]; · iexact H2
  isplitl [H3]; · iexact H3
  isplitl [H4]; · iapply owns_of_writes c _ _ (cover0_C_4 V c t h0 h1 P) (congrArg St0.o4 hS).symm; iexact H4
  isplitl [H5]; · iapply owns_of_writes c _ _ (cover0_C_5 V c t h0 h1 P) (congrArg St0.o5 hS).symm; iexact H5
  isplitl [H6]; · iapply owns_of_writes c _ _ (cover0_C_6 V c t h0 h1 P) (congrArg St0.o6 hS).symm; iexact H6
  isplitl [H7]; · iapply owns_of_writes c _ _ (cover0_C_7 V c t h0 h1 P) (congrArg St0.o7 hS).symm; iexact H7
  iapply owns_of_writes c _ _ (cover0_C_8 V c t h0 h1 P) (congrArg St0.o8 hS).symm; iexact H8

end Region

end Cert.Kernel.Hand

end
-- ==== Proof.K.Body0.lean ====
import proofs.«105460_j37082747634119_1_alg».proof.Proof.K.Body0A
import proofs.«105460_j37082747634119_1_alg».proof.Proof.K.Body0B
import proofs.«105460_j37082747634119_1_alg».proof.Proof.K.Body0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

theorem body_obligation0 (c : Dev nD) : BodyObligation (dat0 (F := F) V c) (defs₀ (F := F)) Variants.none () Set.univ := fun t => by
  rw [bigSep_W0, bigSep_W0]
  by_cases h0 : t.val % 16 = 0
  · exact sound_body0_A V c t h0 (by omega)
  · by_cases h1 : t.val % 16 = 15
    · exact sound_body0_C V c t h0 h1
    · exact sound_body0_B V c t h0 h1

theorem hin0 (c : Dev nD) : Pipeline.ΦA spec0 c ⊢ (dat0 V c).Φ 0 := .rfl

theorem hout0 (c : Dev nD) : (dat0 V c).Φ (Fin.last cfg0.N) ⊢ Pipeline.ΦA spec0 c := PhiS0_weak V c (Fin.last cfg0.N).val (Nat.le_of_lt_succ (Fin.last cfg0.N).isLt)

end Region

end Cert.Kernel.Hand

end
-- ==== Proof.K.Run1A.lean ====
import proofs.«105460_j37082747634119_1_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : cond1_0 i) (hc1 : ¬cond1_1 i)
    (x0 : Vec F S256x512 .f32) (x1 : Vec F S256x512 .f32) (x2 : Vec F S256x1 .i32) (x3 : Vec F S1x256 .i32) (x4 : Vec F S256x1 .f32) :
    Σ' (LS0 : List (View.Piece (Elt F) S256x1 .f32)), { LS1 : List (View.Piece (Elt F) S256x1 .f32) //
      ∀ (xi5 : Vec F S256x1 .f32) (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1_pass2_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc1_pass2_kernel_eq_skeleton]; unfold cc1_pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

end Cert.Kernel.Hand

end
-- ==== Proof.K.Run1B.lean ====
import proofs.«105460_j37082747634119_1_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : ¬cond1_0 i) (hc1 : ¬cond1_1 i)
    (x0 : Vec F S256x512 .f32) (x1 : Vec F S256x512 .f32) (x2 : Vec F S256x1 .i32) (x3 : Vec F S1x256 .i32) (x4 : Vec F S256x1 .f32) (xs0 : Vec F S256x1 .f32) (xs1 : Vec F S256x1 .f32) :
    Σ' (LS0 : List (View.Piece (Elt F) S256x1 .f32)), { LS1 : List (View.Piece (Elt F) S256x1 .f32) //
      ∀ (xi5 : Vec F S256x1 .f32) (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1_pass2_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc1_pass2_kernel_eq_skeleton]; unfold cc1_pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

end Cert.Kernel.Hand

end
-- ==== Proof.K.Run1C.lean ====
import proofs.«105460_j37082747634119_1_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : ¬cond1_0 i) (hc1 : cond1_1 i)
    (x0 : Vec F S256x512 .f32) (x1 : Vec F S256x512 .f32) (x2 : Vec F S256x1 .i32) (x3 : Vec F S1x256 .i32) (x4 : Vec F S256x1 .f32) (xs0 : Vec F S256x1 .f32) (xs1 : Vec F S256x1 .f32) :
    Σ' (L5 : List (View.Piece (Elt F) S256x1 .f32)) (L6 : List (View.Piece (Elt F) S256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1_pass2_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1_pass2_kernel_eq_skeleton]; unfold cc1_pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact H10

end Cert.Kernel.Hand

end
-- ==== Proof.K.Region1.lean ====
import proofs.«105460_j37082747634119_1_alg».proof.Proof.K.Run1A
import proofs.«105460_j37082747634119_1_alg».proof.Proof.K.Run1B
import proofs.«105460_j37082747634119_1_alg».proof.Proof.K.Run1C
import proofs.«105460_j37082747634119_1_alg».proof.Proof.K.Region0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

instance nonemptyElt1 : ∀ e, Nonempty (Elt F e) := fun e => ⟨default⟩

/-- What the body leaves at a point: two output blocks and two accumulators. -/
structure St1 (F : FTy → Type) [FloatOps F] where
  o5 : Vec F S256x1 .f32
  o6 : Vec F S256x1 .f32
  s0 : Vec F S256x1 .f32
  s1 : Vec F S256x1 .f32

def idleOut1 : Vec F S256x1 .f32 := View.canon ([] : List (View.Piece (Elt F) S256x1 .f32))

section Cases
variable (c : Dev nD) (t : Fin cfg1.N) (x0 x1 : Vec F S256x512 .f32) (x2 : Vec F S256x1 .i32) (x3 : Vec F S1x256 .i32) (x4 : Vec F S256x1 .f32)

def run1A (h0 : t.val % 16 = 0) (h1 : ¬t.val % 16 = 15) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) x0 x1 x2 x3 x4
def run1B (h0 : ¬t.val % 16 = 0) (h1 : ¬t.val % 16 = 15) (p : St1 F) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) x0 x1 x2 x3 x4 p.s0 p.s1
def run1C (h0 : ¬t.val % 16 = 0) (h1 : t.val % 16 = 15) (p : St1 F) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) x0 x1 x2 x3 x4 p.s0 p.s1

end Cases

section Region
variable (V : (c : Dev nD) → (b : Ref sig .tc) → Buf (Elt F) ((c : Thread nD τ).loc b))

def stA1 (c : Dev nD) (t : Fin cfg1.N) (h0 : t.val % 16 = 0) (h1 : ¬t.val % 16 = 15) : St1 F :=
  ⟨idleOut1, idleOut1, View.canon (run1A c t (iblk1 V c 0 t) (iblk1 V c 1 t) (iblk1 V c 2 t) (iblk1 V c 3 t) (iblk1 V c 4 t) h0 h1).1, View.canon (run1A c t (iblk1 V c 0 t) (iblk1 V c 1 t) (iblk1 V c 2 t) (iblk1 V c 3 t) (iblk1 V c 4 t) h0 h1).2.1⟩
def stB1 (c : Dev nD) (t : Fin cfg1.N) (h0 : ¬t.val % 16 = 0) (h1 : ¬t.val % 16 = 15) (p : St1 F) : St1 F :=
  ⟨idleOut1, idleOut1, View.canon (run1B c t (iblk1 V c 0 t) (iblk1 V c 1 t) (iblk1 V c 2 t) (iblk1 V c 3 t) (iblk1 V c 4 t) h0 h1 p).1, View.canon (run1B c t (iblk1 V c 0 t) (iblk1 V c 1 t) (iblk1 V c 2 t) (iblk1 V c 3 t) (iblk1 V c 4 t) h0 h1 p).2.1⟩
def stC1 (c : Dev nD) (t : Fin cfg1.N) (h0 : ¬t.val % 16 = 0) (h1 : t.val % 16 = 15) (p : St1 F) : St1 F :=
  ⟨View.canon (run1C c t (iblk1 V c 0 t) (iblk1 V c 1 t) (iblk1 V c 2 t) (iblk1 V c 3 t) (iblk1 V c 4 t) h0 h1 p).1, View.canon (run1C c t (iblk1 V c 0 t) (iblk1 V c 1 t) (iblk1 V c 2 t) (iblk1 V c 3 t) (iblk1 V c 4 t) h0 h1 p).2.1, View.canon (run1C c t (iblk1 V c 0 t) (iblk1 V c 1 t) (iblk1 V c 2 t) (iblk1 V c 3 t) (iblk1 V c 4 t) h0 h1 p).2.2.1, View.canon (run1C c t (iblk1 V c 0 t) (iblk1 V c 1 t) (iblk1 V c 2 t) (iblk1 V c 3 t) (iblk1 V c 4 t) h0 h1 p).2.2.2.1⟩

section
variable (c : Dev nD) (t : Fin cfg1.N) (h0 : t.val % 16 = 0) (h1 : ¬t.val % 16 = 15) (y : S256x1.Idx)
theorem scover1_A_0 : ∃ pc ∈ (run1A c t (iblk1 V c 0 t) (iblk1 V c 1 t) (iblk1 V c 2 t) (iblk1 V c 3 t) (iblk1 V c 4 t) h0 h1).1, y ∈ pc.1.set := View.cover_of_tiledL _ S256x1.size (by sl_kernel_rfl) y
theorem scover1_A_1 : ∃ pc ∈ (run1A c t (iblk1 V c 0 t) (iblk1 V c 1 t) (iblk1 V c 2 t) (iblk1 V c 3 t) (iblk1 V c 4 t) h0 h1).2.1, y ∈ pc.1.set := View.cover_of_tiledL _ S256x1.size (by sl_kernel_rfl) y
end
section
variable (c : Dev nD) (t : Fin cfg1.N) (h0 : ¬t.val % 16 = 0) (h1 : ¬t.val % 16 = 15) (p : St1 F) (y : S256x1.Idx)
theorem scover1_B_0 : ∃ pc ∈ (run1B c t (iblk1 V c 0 t) (iblk1 V c 1 t) (iblk1 V c 2 t) (iblk1 V c 3 t) (iblk1 V c 4 t) h0 h1 p).1, y ∈ pc.1.set := View.cover_of_tiledL _ S256x1.size (by sl_kernel_rfl) y
theorem scover1_B_1 : ∃ pc ∈ (run1B c t (iblk1 V c 0 t) (iblk1 V c 1 t) (iblk1 V c 2 t) (iblk1 V c 3 t) (iblk1 V c 4 t) h0 h1 p).2.1, y ∈ pc.1.set := View.cover_of_tiledL _ S256x1.size (by sl_kernel_rfl) y
end
section
variable (c : Dev nD) (t : Fin cfg1.N) (h0 : ¬t.val % 16 = 0) (h1 : t.val % 16 = 15) (p : St1 F) (y : S256x1.Idx)
theorem scover1_C_0 : ∃ pc ∈ (run1C c t (iblk1 V c 0 t) (iblk1 V c 1 t) (iblk1 V c 2 t) (iblk1 V c 3 t) (iblk1 V c 4 t) h0 h1 p).2.2.1, y ∈ pc.1.set := View.cover_of_tiledL _ S256x1.size (by sl_kernel_rfl) y
theorem scover1_C_1 : ∃ pc ∈ (run1C c t (iblk1 V c 0 t) (iblk1 V c 1 t) (iblk1 V c 2 t) (iblk1 V c 3 t) (iblk1 V c 4 t) h0 h1 p).2.2.2.1, y ∈ pc.1.set := View.cover_of_tiledL _ S256x1.size (by sl_kernel_rfl) y
theorem cover1_C_5 : ∃ pc ∈ (run1C c t (iblk1 V c 0 t) (iblk1 V c 1 t) (iblk1 V c 2 t) (iblk1 V c 3 t) (iblk1 V c 4 t) h0 h1 p).1, y ∈ pc.1.set := View.cover_of_tiledL _ S256x1.size (by sl_kernel_rfl) y
theorem cover1_C_6 : ∃ pc ∈ (run1C c t (iblk1 V c 0 t) (iblk1 V c 1 t) (iblk1 V c 2 t) (iblk1 V c 3 t) (iblk1 V c 4 t) h0 h1 p).2.1, y ∈ pc.1.set := View.cover_of_tiledL _ S256x1.size (by sl_kernel_rfl) y
end

def outsAt1 (c : Dev nD) : (n : ℕ) → n < cfg1.N → St1 F
  | 0, hn => stA1 V c ⟨0, hn⟩ (Nat.zero_mod _) (by show ¬(0 : ℕ) % 16 = 15; decide)
  | n + 1, hn =>
    if h0 : (n + 1) % 16 = 0 then stA1 V c ⟨n + 1, hn⟩ h0 (by show ¬(n + 1) % 16 = 15; omega)
    else if h1 : (n + 1) % 16 = 15 then stC1 V c ⟨n + 1, hn⟩ h0 h1 (outsAt1 c n (Nat.lt_of_succ_lt hn))
    else stB1 V c ⟨n + 1, hn⟩ h0 h1 (outsAt1 c n (Nat.lt_of_succ_lt hn))

abbrev prev1 (c : Dev nD) (t : Fin cfg1.N) : St1 F := outsAt1 V c (t.val - 1) (Nat.lt_of_le_of_lt (Nat.sub_le _ _) t.isLt)

theorem outsAt1_A (c : Dev nD) (t : Fin cfg1.N) (h0 : t.val % 16 = 0) (h1 : ¬t.val % 16 = 15) : outsAt1 V c t.val t.isLt = stA1 V c t h0 h1 := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) : outsAt1 V c t.val t.isLt = stB1 V c t h0 h1 (prev1 V c t) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) : outsAt1 V c t.val t.isLt = stC1 V c t h0 h1 (prev1 V c t) := by
  obtain ⟨n, hn⟩ := t
  cases n with
  | zero => exact absurd (Nat.zero_mod _) h0
  | succ n => exact (dif_neg h0).trans ((dif_pos h1).trans rfl)

def accOwn1 (c : Dev nD) (s : St1 F) : sProp 𝕄 :=
  iprop(iprop(iprop(owns (c : Thread nD τ) scM1_0 fullShare s.s0 ∗ owns (c : Thread nD τ) scM1_1 fullShare s.s1) ∗ rest1 c) ∗ (∃ r, prngReg c r))

def PhiS1 (c : Dev nD) : (n : ℕ) → n ≤ cfg1.N → sProp 𝕄
  | 0, _ => Pipeline.ΦA spec1 c
  | n + 1, hn => accOwn1 c (outsAt1 V c n hn)

theorem PhiS1_pos (c : Dev nD) (n : ℕ) (h : n ≤ cfg1.N) (hz : n ≠ 0) : PhiS1 V c n h = accOwn1 c (outsAt1 V c (n - 1) (by omega)) := by
  cases n with
  | zero => exact absurd rfl hz
  | succ n => rfl

theorem accOwn1_weak (c : Dev nD) (s : St1 F) : accOwn1 c s ⊢ Pipeline.ΦA spec1 c := by
  rw [PhiA1_eq]; unfold accOwn1
  iintro ⟨⟨⟨HS0, HS1⟩, Hrest⟩, Hg⟩
  isplitr [Hg]
  · isplitr [Hrest]
    · isplitl [HS0]; · iexists _; iexact HS0
      iexists _; iexact HS1
    iexact Hrest
  iexact Hg

theorem PhiS1_weak (c : Dev nD) (n : ℕ) (h : n ≤ cfg1.N) : PhiS1 V c n h ⊢ Pipeline.ΦA spec1 c := by
  cases n with
  | zero => exact .rfl
  | succ n => exact accOwn1_weak c _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).o5
    | ⟨6, _⟩ => (outsAt1 V c t.val t.isLt).o6
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).o5 := by dsimp only [dat1]
theorem after1_6 (c : Dev nD) (t : Fin cfg1.N) : (dat1 V c).after 6 t = (outsAt1 V c t.val t.isLt).o6 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem leaves1_0 (c : Dev nD) (t : Fin cfg1.N) : (dat1 V c).leavesExact 0 t = owns (c : Thread nD τ) (ms1_0 t) fullShare (iblk1 V c 0 t) := by
  rw [← after1_0 V c t]
theorem leaves1_1 (c : Dev nD) (t : Fin cfg1.N) : (dat1 V c).leavesExact 1 t = owns (c : Thread nD τ) (ms1_1 t) fullShare (iblk1 V c 1 t) := by
  rw [← after1_1 V c t]
theorem leaves1_2 (c : Dev nD) (t : Fin cfg1.N) : (dat1 V c).leavesExact 2 t = owns (c : Thread nD τ) (ms1_2 t) fullShare (iblk1 V c 2 t) := by
  rw [← after1_2 V c t]
theorem leaves1_3 (c : Dev nD) (t : Fin cfg1.N) : (dat1 V c).leavesExact 3 t = owns (c : Thread nD τ) (ms1_3 t) fullShare (iblk1 V c 3 t) := by
  rw [← after1_3 V c t]
theorem leaves1_4 (c : Dev nD) (t : Fin cfg1.N) : (dat1 V c).leavesExact 4 t = owns (c : Thread nD τ) (ms1_4 t) fullShare (iblk1 V c 4 t) := by
  rw [← after1_4 V c t]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000

theorem sound_body1_A (c : Dev nD) (t : Fin cfg1.N) (h0 : t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = accOwn1 c (outsAt1 V c t.val t.isLt) from rfl]
  rw [leaves1_0, leaves1_1, leaves1_2, leaves1_3, leaves1_4]
  rw [Dat.leavesExact_idle (dat1 V c) 5 t (idleAt1_5 t h1) (noFlush1_5 t h1)]
  rw [Dat.leavesExact_idle (dat1 V c) 6 t (idleAt1_6 t h1) (noFlush1_6 t h1)]
  rw [outsAt1_A V c t h0 h1]
  unfold stA1 accOwn1; (try dsimp only)
  rw [PhiS1_castSucc V c t]
  refine (sep_mono (PhiS1_weak V c _ _) .rfl).trans ?_
  rw [PhiA1_eq]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run1A c t (iblk1 V c 0 t) (iblk1 V c 1 t) (iblk1 V c 2 t) (iblk1 V c 3 t) (iblk1 V c 4 t) h0 h1).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hrest Hg]
  · isplitr [Hg]
    · isplitr [Hrest]
      · isplitl [HS0]; · iapply owns_of_writes c _ _ (scover1_A_0 V c t h0 h1) rfl; iexact HS0
        iapply owns_of_writes c _ _ (scover1_A_1 V c t h0 h1) rfl; iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = accOwn1 c (outsAt1 V c t.val t.isLt) from rfl]
  rw [leaves1_0, leaves1_1, leaves1_2, leaves1_3, leaves1_4]
  rw [Dat.leavesExact_idle (dat1 V c) 5 t (idleAt1_5 t h1) (noFlush1_5 t h1)]
  rw [Dat.leavesExact_idle (dat1 V c) 6 t (idleAt1_6 t h1) (noFlush1_6 t h1)]
  rw [outsAt1_B V c t h0 h1]
  unfold stB1 accOwn1; (try dsimp only)
  rw [PhiS1_castSucc V c t, PhiS1_pos V c _ _ (fun hz => h0 (by rw [hz]))]
  unfold accOwn1
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run1B c t (iblk1 V c 0 t) (iblk1 V c 1 t) (iblk1 V c 2 t) (iblk1 V c 3 t) (iblk1 V c 4 t) h0 h1 (prev1 V c t)).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hrest Hg]
  · isplitr [Hg]
    · isplitr [Hrest]
      · isplitl [HS0]; · iapply owns_of_writes c _ _ (scover1_B_0 V c t h0 h1 (prev1 V c t)) rfl; iexact HS0
        iapply owns_of_writes c _ _ (scover1_B_1 V c t h0 h1 (prev1 V c t)) rfl; iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

theorem sound_body1_C (c : Dev nD) (t : Fin cfg1.N) (h0 : ¬t.val % 16 = 0) (h1 : t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = accOwn1 c (outsAt1 V c t.val t.isLt) from rfl]
  rw [leaves1_0, leaves1_1, leaves1_2, leaves1_3, leaves1_4]
  rw [show (dat1 V c).leavesExact 5 t = owns (c : Thread nD τ) (ms1_5 t) fullShare ((dat1 V c).after 5 t) from by
    unfold Dat.leavesExact; rw [liveAt1_5_C t h1], after1_5]
  rw [show (dat1 V c).leavesExact 6 t = owns (c : Thread nD τ) (ms1_6 t) fullShare ((dat1 V c).after 6 t) from by
    unfold Dat.leavesExact; rw [liveAt1_6_C t h1], after1_6]
  rw [outsAt1_C V c t h0 h1]
  unfold stC1 accOwn1; (try dsimp only)
  rw [PhiS1_castSucc V c t, PhiS1_pos V c _ _ (fun hz => h0 (by rw [hz]))]
  unfold accOwn1
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run1C c t (iblk1 V c 0 t) (iblk1 V c 1 t) (iblk1 V c 2 t) (iblk1 V c 3 t) (iblk1 V c 4 t) h0 h1 (prev1 V c t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hrest Hg]
  · isplitr [Hg]
    · isplitr [Hrest]
      · isplitl [HS0]; · iapply owns_of_writes c _ _ (scover1_C_0 V c t h0 h1 (prev1 V c t)) rfl; iexact HS0
        iapply owns_of_writes c _ _ (scover1_C_1 V c t h0 h1 (prev1 V c t)) rfl; iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply owns_of_writes c _ _ (cover1_C_5 V c t h0 h1 (prev1 V c t)) rfl; iexact H5
  iapply owns_of_writes c _ _ (cover1_C_6 V c t h0 h1 (prev1 V c t)) rfl; iexact H6

theorem body_obligation1 (c : Dev nD) : BodyObligation (dat1 (F := F) V c) (defs₀ (F := F)) Variants.none () Set.univ := fun t => by
  rw [bigSep_W1, bigSep_W1]
  by_cases h0 : t.val % 16 = 0
  · exact sound_body1_A V c t h0 (by omega)
  · by_cases h1 : t.val % 16 = 15
    · exact sound_body1_C V c t h0 h1
    · exact sound_body1_B V c t h0 h1

theorem hin1 (c : Dev nD) : Pipeline.ΦA spec1 c ⊢ (dat1 V c).Φ 0 := .rfl

theorem hout1 (c : Dev nD) : (dat1 V c).Φ (Fin.last cfg1.N) ⊢ Pipeline.ΦA spec1 c := PhiS1_weak V c (Fin.last cfg1.N).val (Nat.le_of_lt_succ (Fin.last cfg1.N).isLt)

end Region

end Cert.Kernel.Hand

end
-- ==== Proof.K.Frame.lean ====
import proofs.«105460_j37082747634119_1_alg».proof.Proof.K.Body0
import proofs.«105460_j37082747634119_1_alg».proof.Proof.K.Region1
import proofs.«105460_j37082747634119_1_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.Kernel Cert.Kernel.Gen

variable {F : FTy → Type} [FloatOps F]

local notation "𝕄" => MT nD τ sig Unit (Elt F) ℕ (UR sig nD τ) ℕ

section Arrays

/-- The two halves of the full share of a buffer join to the full share. -/
theorem halves {ℓ : Loc nD τ sig} (v : Buf (Elt F) ℓ) (T : sProp 𝕄) :
    iprop((ℓ ↦{fullShare.left} v) ∗ (ℓ ↦{fullShare.right} v) ∗ T) = iprop((ℓ ↦{fullShare} v) ∗ T) := by
  have h : (ℓ ↦{fullShare} v : sProp 𝕄) ⊣⊢ _ := pointsTo_share (PosShare.mem_left_op_right fullShare)
  rw [Entails.antisymm h.1 h.2]
  exact sep_assoc'.antisymm sep_assoc

/-- For whole arrays, `arrays` is one points-to per window at that window's share. -/
theorem arrays_whole {cfg : Cfg sig Λ₀} {c : Dev nD} (d : Dat τ (Elt F) Unit ℕ (UR sig nD τ) ℕ cfg c) (h : ∀ w, (cfg.spec w).arr.IsWhole)
    (G : (w : Fin cfg.W) → Buf (Elt F) ((cfg.win w).arr.view.loc (c : Thread nD τ))) :
    (d.arrays G : sProp 𝕄) = bigSep Finset.univ fun w => ((c : Thread nD τ).loc (Pipeline.arrRef cfg.spec w)) ↦{d.share w} G w := by
  unfold Dat.arrays
  exact bigSep_congr fun w _ => by rw [(h w).set_eq_univ]

variable (V : (c : Dev nD) → (b : Ref sig .tc) → Buf (Elt F) ((c : Thread nD τ).loc b)) (c : Dev nD)
  (V' : (b : Ref sig .tc) → Buf (Elt F) ((c : Thread nD τ).loc b))

/-- Region 0's arrays at `G` are the buffers behind them at `V'`: the array windows 0 and 1 share is held in halves. -/
theorem arrays0 (G : (w : Fin cfg0.W) → Buf (Elt F) ((cfg0.win w).arr.view.loc (c : Thread nD τ))) (hG : ∀ w, G w = V' (Pipeline.arrRef spec0 w)) :
    ((dat0 V c).arrays G : sProp 𝕄) = Pipeline.arrBufs spec0 c V' := by
  obtain rfl := funext hG
  unfold Pipeline.arrBufs
  rw [arrays_whole (dat0 V c) arr_whole0, bigSep_W0,
    bigSep_eq_bigSepL_of_eq [main_arg0, main_v0, main_v1, main_v2_0, main_v2_1, main_v2_2, main_v2_3, main_v2_4] (by decide) (by decide)]
  exact halves _ _

/-- The same for region 1. -/
theorem arrays1 (G : (w : Fin cfg1.W) → Buf (Elt F) ((cfg1.win w).arr.view.loc (c : Thread nD τ))) (hG : ∀ w, G w = V' (Pipeline.arrRef spec1 w)) :
    ((dat1 V c).arrays G : sProp 𝕄) = Pipeline.arrBufs spec1 c V' := by
  obtain rfl := funext hG
  unfold Pipeline.arrBufs
  rw [arrays_whole (dat1 V c) arr_whole1, bigSep_W1,
    bigSep_eq_bigSepL_of_eq [main_arg0, main_v0, main_v1, main_v2_0, main_v3_0, main_v3_1] (by decide) (by decide)]
  exact halves _ _

/-- The held unscoped buffers split into pipeline `p`'s arrays and the rest, the rest at any contents agreeing off the arrays. -/
theorem held_eq (p : Fin 2) (hw : Pipeline.WinFacts₀ (cfgs p).spec) (W : Valuation τ sig (Elt F)) {A : sProp 𝕄}
    (ha : A = Pipeline.arrBufs (cfgs p).spec c fun b => W b)
    (hr : ∀ b, b ∉ Finset.univ.image (Pipeline.arrRef (cfgs p).spec) → W b = V' b) :
    (StableHlo.held (c : Thread nD τ) (Pipeline.ucRefs τ sig) W : sProp 𝕄) = iprop(A ∗ Pipeline.unscopedRest (cfgs p).spec c V') := by
  rw [← Pipeline.unscopedBufs_held, Pipeline.unscopedBufs_split₀ cfgs p hw.arr_unscoped, ha]
  unfold Pipeline.unscopedRest
  congr 1
  exact bigSep_congr fun b hb => by rw [← hr b (Finset.mem_sdiff.mp hb).2]

end Arrays

section Region
variable (c : Dev nD)

abbrev Pr : sProp 𝕄 := iprop(∃ r, prngReg c r)
abbrev Ow : sProp 𝕄 := iprop(∃ W, owes (c : Thread nD τ) (0 : CellTallies nD τ sig Unit) W)
/-- The state between items: every unscoped buffer at `W`, the generator register, nothing owed. -/
abbrev St (W : Dev nD → Valuation τ sig (Elt F)) : sProp 𝕄 :=
  iprop(StableHlo.held (c : Thread nD τ) (Pipeline.ucRefs τ sig) (W c) ∗ Pr c ∗ Ow c)

/-- Entering a region: the held buffers split (`hs`); everything else passes through. -/
theorem entry {H A Z Pf S : sProp 𝕄} {B : Set (SemLoc sig × Unit)} (hs : H = iprop(A ∗ Z)) (hB : ∀ x, x ∈ B) (hp : Pf = BI.emp := by exact BI.bigSep_empty) :
    iprop((H ∗ Pr c ∗ Ow c) ∗ S) ⊢ |={Set.univ}=> iprop(A ∗ Pf ∗ Pipeline.owesWithin c 0 B ∗ Pr c ∗ Z) := by
  subst hs hp
  iintro ⟨⟨⟨HA, HZ⟩, HP, %W, HO⟩, -⟩
  imodintro
  iframe
  isplitr; · iempintro
  iexists W; isplitr; · ipureintro; exact fun x _ => hB x
  iexact HO

/-- Leaving a region: the converse. -/
theorem exit {H A Z : sProp 𝕄} {B : Set (SemLoc sig × Unit)} (hj : H = iprop(A ∗ Z)) :
    iprop(A ∗ Pipeline.owesWithin c 0 B ∗ Pr c ∗ Z) ⊢ |={Set.univ}=> iprop(H ∗ Pr c ∗ Ow c) := by
  subst hj
  iintro ⟨HA, ⟨%W, -, HO⟩, HP, HZ⟩
  imodintro
  iframe
  iexists W; iexact HO

theorem hin_of {Pf Sr Φ : sProp 𝕄} (h : iprop(Sr ∗ Pr c) ⊢ Φ) : iprop(Pr c ∗ Pf ∗ Sr) ⊢ Φ := by
  iintro ⟨HP, -, HS⟩
  iapply h
  iframe

theorem hout_of {Sr Φ : sProp 𝕄} (h : Φ ⊢ iprop(Sr ∗ Pr c)) :
    Φ ⊢ iprop(Pr c ∗ Pipeline.ownSems0 (fun k : PEmpty => k.elim) c ∗ Sr) := by
  rw [Pipeline.ownSems0_none]
  refine h.trans ?_
  iintro ⟨HS, HP⟩
  iframe
  iempintro

end Region

section Run
variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its output arrays at their final contents, the rest unchanged. -/
def W2 (c : Dev nD) : Valuation τ sig (Elt F) :=
  Function.update (Function.update (Function.update (Function.update (Function.update (W1 m c)
    main_v2_0 ((dat0 (V1 m) c).arrAt 4 cfg0.N)) main_v2_1 ((dat0 (V1 m) c).arrAt 5 cfg0.N)) main_v2_2 ((dat0 (V1 m) c).arrAt 6 cfg0.N))
    main_v2_3 ((dat0 (V1 m) c).arrAt 7 cfg0.N)) main_v2_4 ((dat0 (V1 m) c).arrAt 8 cfg0.N)
abbrev V2 : (c : Dev nD) → (b : Ref sig .tc) → Buf (Elt F) ((c : Thread nD τ).loc b) := fun c b => W2 m c b
/-- After region 1, likewise. -/
def W3 (c : Dev nD) : Valuation τ sig (Elt F) :=
  Function.update (Function.update (W2 m c) main_v3_0 ((dat1 (V2 m) c).arrAt 5 cfg1.N)) main_v3_1 ((dat1 (V2 m) c).arrAt 6 cfg1.N)
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)

/-- An update at a different buffer is invisible. -/
theorem upd_ne {W : Valuation τ sig (Elt F)} {a r : Ref sig .tc} {v} (h : r ≠ a) :
    Function.update W (Proc.devRef .tc a) v (Proc.devRef .tc r) = W (Proc.devRef .tc r) :=
  Function.update_of_ne (StableHlo.devRef_ne_of_ne h) v W

theorem W2_of (c : Dev nD) (r : Ref sig .tc) (h : r ∉ ([main_v2_0, main_v2_1, main_v2_2, main_v2_3, main_v2_4] : List (Ref sig .tc))) :
    W2 m c r = W1 m c r := by
  simp only [List.mem_cons, List.not_mem_nil, or_false, not_or] at h
  unfold W2
  rw [upd_ne h.2.2.2.2, upd_ne h.2.2.2.1, upd_ne h.2.2.1, upd_ne h.2.1, upd_ne h.1]
theorem W3_of (c : Dev nD) (r : Ref sig .tc) (h : r ∉ ([main_v3_0, main_v3_1] : List (Ref sig .tc))) : W3 m c r = W2 m c r := by
  simp only [List.mem_cons, List.not_mem_nil, or_false, not_or] at h
  unfold W3
  rw [upd_ne h.2, upd_ne h.1]

theorem W2_v2_0 (c : Dev nD) : W2 m c main_v2_0 = (dat0 (V1 m) c).arrAt 4 cfg0.N := by
  unfold W2; rw [upd_ne (by decide), upd_ne (by decide), upd_ne (by decide), upd_ne (by decide), Function.update_self]
theorem W2_v2_1 (c : Dev nD) : W2 m c main_v2_1 = (dat0 (V1 m) c).arrAt 5 cfg0.N := by
  unfold W2; rw [upd_ne (by decide), upd_ne (by decide), upd_ne (by decide), Function.update_self]
theorem W2_v2_2 (c : Dev nD) : W2 m c main_v2_2 = (dat0 (V1 m) c).arrAt 6 cfg0.N := by
  unfold W2; rw [upd_ne (by decide), upd_ne (by decide), Function.update_self]
theorem W2_v2_3 (c : Dev nD) : W2 m c main_v2_3 = (dat0 (V1 m) c).arrAt 7 cfg0.N := by
  unfold W2; rw [upd_ne (by decide), Function.update_self]
theorem W2_v2_4 (c : Dev nD) : W2 m c main_v2_4 = (dat0 (V1 m) c).arrAt 8 cfg0.N := by
  unfold W2; rw [Function.update_self]
theorem W3_v3_0 (c : Dev nD) : W3 m c main_v3_0 = (dat1 (V2 m) c).arrAt 5 cfg1.N := by
  unfold W3; rw [upd_ne (by decide), Function.update_self]
theorem W3_v3_1 (c : Dev nD) : W3 m c main_v3_1 = (dat1 (V2 m) c).arrAt 6 cfg1.N := by
  unfold W3; rw [Function.update_self]

/-- A buffer that no item writes ends at its launch contents. -/
theorem W6_arg (c : Dev nD) (r : Ref sig .tc) (h0 : r ∉ hostOps0_W := by decide)
    (h1 : r ∉ ([main_v2_0, main_v2_1, main_v2_2, main_v2_3, main_v2_4] : List (Ref sig .tc)) := by decide)
    (h2 : r ∉ ([main_v3_0, main_v3_1] : List (Ref sig .tc)) := by decide) (h3 : r ∉ hostOps2_W := by decide) (h4 : r ∉ hostOps2_1_W := by decide)
    (h5 : r ∉ hostOps2_2_W := by decide) :
    W6 m c (Proc.devRef .tc r) = m ((c : Thread nD τ).loc r) :=
  (StableHlo.after_of_writes_sub hostOps2_2 _ hostOps2_2_writes h5).trans <| (StableHlo.after_of_writes_sub hostOps2_1 _ hostOps2_1_writes h4).trans <|
    (StableHlo.after_of_writes_sub hostOps2 _ hostOps2_writes h3).trans <| (W3_of m c r h2).trans <| (W2_of m c r h1).trans <|
    (StableHlo.after_of_writes_sub hostOps0 _ hostOps0_writes h0).trans rfl
theorem W6_main_arg0 (c : Dev nD) : W6 m c (Proc.devRef .tc main_arg0) = m ((c : Thread nD τ).loc main_arg0) :=
  W6_arg m c main_arg0
theorem W6_main_arg1 (c : Dev nD) : W6 m c (Proc.devRef .tc main_arg1) = m ((c : Thread nD τ).loc main_arg1) :=
  W6_arg m c main_arg1

/-- An input array ends as it began. -/
theorem inp {cfg : Cfg sig Λ₀} {c : Dev nD} (d : Dat τ (Elt F) Unit ℕ (UR sig nD τ) ℕ cfg c) (w : Fin cfg.W) {x} (h : x = d.A w)
    (hi : (cfg.win w).isOut = false := by rfl) : d.arrAt w cfg.N = x :=
  (d.arrAt_in w hi _).trans h.symm

/-- Region 0's arrays at the last point, read off `W2`; region 1's off `W3`. -/
theorem outs0 (c : Dev nD) : ∀ w, (dat0 (V1 m) c).arrAt w cfg0.N = W2 m c (Pipeline.arrRef spec0 w)
  | 0 => inp _ 0 (W2_of m c main_arg0 (by decide))
  | 1 => inp _ 1 (W2_of m c main_arg0 (by decide))
  | 2 => inp _ 2 (W2_of m c main_v0 (by decide))
  | 3 => inp _ 3 (W2_of m c main_v1 (by decide))
  | 4 => (W2_v2_0 m c).symm
  | 5 => (W2_v2_1 m c).symm
  | 6 => (W2_v2_2 m c).symm
  | 7 => (W2_v2_3 m c).symm
  | 8 => (W2_v2_4 m c).symm
  | ⟨_ + 9, h⟩ => absurd h (Nat.not_lt.2 (Nat.le_add_left _ _))
theorem outs1 (c : Dev nD) : ∀ w, (dat1 (V2 m) c).arrAt w cfg1.N = W3 m c (Pipeline.arrRef spec1 w)
  | 0 => inp _ 0 (W3_of m c main_arg0 (by decide))
  | 1 => inp _ 1 (W3_of m c main_arg0 (by decide))
  | 2 => inp _ 2 (W3_of m c main_v0 (by decide))
  | 3 => inp _ 3 (W3_of m c main_v1 (by decide))
  | 4 => inp _ 4 (W3_of m c main_v2_0 (by decide))
  | 5 => (W3_v3_0 m c).symm
  | 6 => (W3_v3_1 m c).symm
  | ⟨_ + 7, h⟩ => absurd h (Nat.not_lt.2 (Nat.le_add_left _ _))

end Run

section Segs
variable (m : (ℓ : Loc nD τ sig) → Buf (Elt F) ℓ) (ρ : Dev nD → PrngReg)

def pdats : (p : Fin 2) → (c : Dev nD) → Dat τ (Elt F) Unit ℕ (UR sig nD τ) ℕ (Pipeline.pin (pcfgs (F := F)) adm p) c
  | ⟨0, _⟩ => dat0 (V1 m)
  | ⟨1, _⟩ => dat1 (V2 m)
abbrev 𝒱₀ : Variants := Variants.none
abbrev L : GSem nD τ sig → Finset Unit := fun _ => ∅
abbrev lv : GSem nD τ sig → Unit → ℕ := fun _ _ => 0
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W fun c => iprop(Pr c ∗ Ow c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0 as a segment from `W1` to `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := St c (W1 m)
  post c := St c (W2 m)
  X c := Pr c
  Y c := Pr c
  Z c := Pipeline.unscopedRest spec0 c (V1 m c)
  hentry c := entry c (held_eq c (V1 m c) 0 winFacts₀0 (W1 m c) (arrays0 (V1 m) c _ _ fun _ => rfl) fun _ _ => rfl)
    fun _ => Or.inl trivial
  hin c := hin_of c (hin0 (V1 m) c)
  hout c := hout_of c (hout0 (V1 m) c)
  hexit c := exit c (held_eq c (V1 m c) 0 winFacts₀0 (W2 m c) (arrays0 (V1 m) c _ _ (outs0 m c)) fun b hb => W2_of m c b fun h =>
    hb ((by decide : ∀ b ∈ ([main_v2_0, main_v2_1, main_v2_2, main_v2_3, main_v2_4] : List (Ref sig .tc)), b ∈ Finset.univ.image (Pipeline.arrRef spec0)) b h))

/-- Region 1 as a segment from `W2` to `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := St c (W2 m)
  post c := St c (W3 m)
  X c := Pr c
  Y c := Pr c
  Z c := Pipeline.unscopedRest spec1 c (V2 m c)
  hentry c := entry c (held_eq c (V2 m c) 1 winFacts₀1 (W2 m c) (arrays1 (V2 m) c _ _ fun _ => rfl) fun _ _ => rfl)
    fun _ => Or.inl trivial
  hin c := hin_of c (hin1 (V2 m) c)
  hout c := hout_of c (hout1 (V2 m) c)
  hexit c := exit c (held_eq c (V2 m c) 1 winFacts₀1 (W3 m c) (arrays1 (V2 m) c _ _ (outs1 m c)) fun b hb => W3_of m c b fun h =>
    hb ((by decide : ∀ b ∈ ([main_v3_0, main_v3_1] : List (Ref sig .tc)), b ∈ Finset.univ.image (Pipeline.arrRef spec1)) b h))

/-- @main as segments: the host stretches and the two regions, in order. -/
abbrev segs : List (Pipeline.Seg (pcfgs (F := F)) adm (pdats m) () defs₀ 𝒱₀ L lv) :=
  [ .host (hseg hostOps0 hostOps0_sub hostOps0_fresh (W0 m)), .region (reg0 m), .region (reg1 m),
    .host (hseg hostOps2 hostOps2_sub hostOps2_fresh (W3 m)), .host (hseg hostOps2_1 hostOps2_1_sub hostOps2_1_fresh (W4 m)),
    .host (hseg hostOps2_2 hostOps2_2_sub hostOps2_2_fresh (W5 m)) ]

abbrev u₀ := initOf (Pipeline.cells cfgs cellOf_inj) (Pipeline.launchToks cfgs cellOf_inj)

/-- Every weakly fair run of @main terminates with the unscoped buffers at `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m c b) :=
  Pipeline.θ_run_regions_kit (pcfgs (F := F)) adm (pdats m) () cellOf_inj emb₁ defs₀ 𝒱₀ L lv m ρ main (segs m)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => iprop(emp))
    (u₀ := u₀)
    (hu₀ := by
      iintro Hu; imodintro
      isplitl [Hu]
      · iapply (show (ownU u₀ : sProp 𝕄) ⊢ BI.own (emb₁ u₀) from .rfl)
        iexact Hu
      iapply (Entails.of_eq (BI.bigSep_emp_const _).symm)
      iempintro)
    (T₀ := fun c => St c (W0 m)) (Tₙ := fun c => iprop(StableHlo.held (c : Thread nD τ) (Pipeline.ucRefs τ sig) (W6 m c) ∗ Pr c))
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = _ from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- Hence the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  OrdCont.mono (θ_run defs (onTc (τ := τ) (main (F := F))) ⟨m, fun _ => 0, ρ⟩) (fun r h c =>
    ⟨(h c _ (mem_uc main_arg0 (by decide))).trans (W6_main_arg0 m c),
     (h c _ (mem_uc main_arg1 (by decide))).trans (W6_main_arg1 m c)⟩) (run_all m ρ)

end Segs

end Cert.Kernel.Hand

end
-- ==== Proof.KI.Base.lean ====
import proofs.«105460_j37082747634119_1_alg».proof.Proof.Gen.KernelIdeal.Launch
import proofs.«105460_j37082747634119_1_alg».proof.Proof.Gen.KernelIdeal.Skeleton
import proofs.«105460_j37082747634119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬ t.val % 16 = 15 → cfg0.idle 4 (grid0.coords t) = true :=
  (by decide +kernel : ∀ t : Fin grid0.N, ¬ t.val % 16 = 15 → cfg0.idle 4 (grid0.coords t) = true)
theorem noFlush0_4 : ∀ t : Fin cfg0.N, ¬ t.val % 16 = 15 → (cfg0.win 4).flush t = false :=
  (by decide +kernel : ∀ t : Fin grid0.N, ¬ t.val % 16 = 15 → win0_4.flush t = false)
theorem liveAt0_4_C : ∀ t : Fin cfg0.N, t.val % 16 = 15 → cfg0.idle 4 (grid0.coords t) = false :=
  (by decide +kernel : ∀ t : Fin grid0.N, t.val % 16 = 15 → cfg0.idle 4 (grid0.coords t) = false)
theorem idleAt0_5 : ∀ t : Fin cfg0.N, ¬ t.val % 16 = 15 → cfg0.idle 5 (grid0.coords t) = true :=
  (by decide +kernel : ∀ t : Fin grid0.N, ¬ t.val % 16 = 15 → cfg0.idle 5 (grid0.coords t) = true)
theorem noFlush0_5 : ∀ t : Fin cfg0.N, ¬ t.val % 16 = 15 → (cfg0.win 5).flush t = false :=
  (by decide +kernel : ∀ t : Fin grid0.N, ¬ t.val % 16 = 15 → win0_5.flush t = false)
theorem liveAt0_5_C : ∀ t : Fin cfg0.N, t.val % 16 = 15 → cfg0.idle 5 (grid0.coords t) = false :=
  (by decide +kernel : ∀ t : Fin grid0.N, t.val % 16 = 15 → cfg0.idle 5 (grid0.coords t) = false)
theorem idleAt0_6 : ∀ t : Fin cfg0.N, ¬ t.val % 16 = 15 → cfg0.idle 6 (grid0.coords t) = true :=
  (by decide +kernel : ∀ t : Fin grid0.N, ¬ t.val % 16 = 15 → cfg0.idle 6 (grid0.coords t) = true)
theorem noFlush0_6 : ∀ t : Fin cfg0.N, ¬ t.val % 16 = 15 → (cfg0.win 6).flush t = false :=
  (by decide +kernel : ∀ t : Fin grid0.N, ¬ t.val % 16 = 15 → win0_6.flush t = false)
theorem liveAt0_6_C : ∀ t : Fin cfg0.N, t.val % 16 = 15 → cfg0.idle 6 (grid0.coords t) = false :=
  (by decide +kernel : ∀ t : Fin grid0.N, t.val % 16 = 15 → cfg0.idle 6 (grid0.coords t) = false)
theorem idleAt0_7 : ∀ t : Fin cfg0.N, ¬ t.val % 16 = 15 → cfg0.idle 7 (grid0.coords t) = true :=
  (by decide +kernel : ∀ t : Fin grid0.N, ¬ t.val % 16 = 15 → cfg0.idle 7 (grid0.coords t) = true)
theorem noFlush0_7 : ∀ t : Fin cfg0.N, ¬ t.val % 16 = 15 → (cfg0.win 7).flush t = false :=
  (by decide +kernel : ∀ t : Fin grid0.N, ¬ t.val % 16 = 15 → win0_7.flush t = false)
theorem liveAt0_7_C : ∀ t : Fin cfg0.N, t.val % 16 = 15 → cfg0.idle 7 (grid0.coords t) = false :=
  (by decide +kernel : ∀ t : Fin grid0.N, t.val % 16 = 15 → cfg0.idle 7 (grid0.coords t) = false)
theorem idleAt0_8 : ∀ t : Fin cfg0.N, ¬ t.val % 16 = 15 → cfg0.idle 8 (grid0.coords t) = true :=
  (by decide +kernel : ∀ t : Fin grid0.N, ¬ t.val % 16 = 15 → cfg0.idle 8 (grid0.coords t) = true)
theorem noFlush0_8 : ∀ t : Fin cfg0.N, ¬ t.val % 16 = 15 → (cfg0.win 8).flush t = false :=
  (by decide +kernel : ∀ t : Fin grid0.N, ¬ t.val % 16 = 15 → win0_8.flush t = false)
theorem liveAt0_8_C : ∀ t : Fin cfg0.N, t.val % 16 = 15 → cfg0.idle 8 (grid0.coords t) = false :=
  (by decide +kernel : ∀ t : Fin grid0.N, t.val % 16 = 15 → cfg0.idle 8 (grid0.coords t) = false)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬ t.val % 16 = 15 → cfg1.idle 5 (grid1.coords t) = true :=
  (by decide +kernel : ∀ t : Fin grid1.N, ¬ t.val % 16 = 15 → cfg1.idle 5 (grid1.coords t) = true)
theorem noFlush1_5 : ∀ t : Fin cfg1.N, ¬ t.val % 16 = 15 → (cfg1.win 5).flush t = false :=
  (by decide +kernel : ∀ t : Fin grid1.N, ¬ t.val % 16 = 15 → win1_5.flush t = false)
theorem liveAt1_5_C : ∀ t : Fin cfg1.N, t.val % 16 = 15 → cfg1.idle 5 (grid1.coords t) = false :=
  (by decide +kernel : ∀ t : Fin grid1.N, t.val % 16 = 15 → cfg1.idle 5 (grid1.coords t) = false)
theorem idleAt1_6 : ∀ t : Fin cfg1.N, ¬ t.val % 16 = 15 → cfg1.idle 6 (grid1.coords t) = true :=
  (by decide +kernel : ∀ t : Fin grid1.N, ¬ t.val % 16 = 15 → cfg1.idle 6 (grid1.coords t) = true)
theorem noFlush1_6 : ∀ t : Fin cfg1.N, ¬ t.val % 16 = 15 → (cfg1.win 6).flush t = false :=
  (by decide +kernel : ∀ t : Fin grid1.N, ¬ t.val % 16 = 15 → win1_6.flush t = false)
theorem liveAt1_6_C : ∀ t : Fin cfg1.N, t.val % 16 = 15 → cfg1.idle 6 (grid1.coords t) = false :=
  (by decide +kernel : ∀ t : Fin grid1.N, t.val % 16 = 15 → cfg1.idle 6 (grid1.coords t) = false)

abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1 .f32 := win0_8.stage (cfg0.slots t 8)
abbrev hs0_8 (t : Fin cfg0.N) : (ms0_8 t).IsWhole := hstage0_8 ((cfg0.slots t 8).cast nbuf0_8)
abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x1 .f32 := win1_6.stage (cfg1.slots t 6)
abbrev hs1_6 (t : Fin cfg1.N) : (ms1_6 t).IsWhole := hstage1_6 ((cfg1.slots t 6).cast nbuf1_6)
abbrev scM0_0 : Memref sig .tc .vmem S256x1 .f32 := Memref.whole cc0_scratch0
abbrev scM0_1 : Memref sig .tc .vmem S256x1 .f32 := Memref.whole cc0_scratch1
abbrev scM0_2 : Memref sig .tc .vmem S256x1 .f32 := Memref.whole cc0_scratch2
abbrev scM0_3 : Memref sig .tc .vmem S256x1 .f32 := Memref.whole cc0_scratch3
abbrev scM0_4 : Memref sig .tc .vmem S256x1 .f32 := Memref.whole cc0_scratch4
abbrev scM1_0 : Memref sig .tc .vmem S256x1 .f32 := Memref.whole cc1_scratch0
abbrev scM1_1 : Memref sig .tc .vmem S256x1 .f32 := Memref.whole cc1_scratch1

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ rest0 c) ∗ (∃ r, prngReg c r)) := by
  unfold Pipeline.ΦA rest0; rw [scopedRest0_eq]; simp only [scM0_0, scM0_1, scM0_2, scM0_3, scM0_4, owns_whole]; try rfl

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

section Blocks
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.KI.Run0A.lean ====
import proofs.«105460_j37082747634119_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i)
    (x0 : Vec F S256x512 .f32) (x1 : Vec F S256x512 .f32) (x2 : Vec F S256x1 .i32) (x3 : Vec F S1x256 .i32) :
    Σ' (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (xi4 : Vec F S256x1 .f32) (xi5 : Vec F S256x1 .f32) (xi6 : Vec F S256x1 .f32) (xi7 : Vec F S256x1 .f32) (xi8 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0_pass1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi4 xi5 xi6 xi7 xi8 E K => ?run⟩
  case run =>
    simp only [cc0_pass1_kernel_eq_skeleton]; unfold cc0_pass1_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    iexists _; iexact H15

end Cert.KernelIdeal.Hand

end
-- ==== Proof.KI.Run0B.lean ====
import proofs.«105460_j37082747634119_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i)
    (x0 : Vec F S256x512 .f32) (x1 : Vec F S256x512 .f32) (x2 : Vec F S256x1 .i32) (x3 : Vec F S1x256 .i32) (xs0 : Vec F S256x1 .f32) (xs1 : Vec F S256x1 .f32) (xs2 : Vec F S256x1 .f32) (xs3 : Vec F S256x1 .f32) (xs4 : Vec F S256x1 .f32) :
    Σ' (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (xi4 : Vec F S256x1 .f32) (xi5 : Vec F S256x1 .f32) (xi6 : Vec F S256x1 .f32) (xi7 : Vec F S256x1 .f32) (xi8 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0_pass1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi4 xi5 xi6 xi7 xi8 E K => ?run⟩
  case run =>
    simp only [cc0_pass1_kernel_eq_skeleton]; unfold cc0_pass1_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    iexists _; iexact H15

end Cert.KernelIdeal.Hand

end
-- ==== Proof.KI.Run0C.lean ====
import proofs.«105460_j37082747634119_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i)
    (x0 : Vec F S256x512 .f32) (x1 : Vec F S256x512 .f32) (x2 : Vec F S256x1 .i32) (x3 : Vec F S1x256 .i32) (xs0 : Vec F S256x1 .f32) (xs1 : Vec F S256x1 .f32) (xs2 : Vec F S256x1 .f32) (xs3 : Vec F S256x1 .f32) (xs4 : Vec F S256x1 .f32) :
    Σ' (L4 : List (View.Piece (Elt F) S256x1 .f32)) (L5 : List (View.Piece (Elt F) S256x1 .f32)) (L6 : List (View.Piece (Elt F) S256x1 .f32)) (L7 : List (View.Piece (Elt F) S256x1 .f32)) (L8 : List (View.Piece (Elt F) S256x1 .f32)) (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0_pass1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, fun E K => ?run⟩
  case run =>
    simp only [cc0_pass1_kernel_eq_skeleton]; unfold cc0_pass1_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.KernelIdeal.Hand

end
-- ==== Proof.KI.Region0.lean ====
import proofs.«105460_j37082747634119_1_alg».proof.Proof.KI.Run0A
import proofs.«105460_j37082747634119_1_alg».proof.Proof.KI.Run0B
import proofs.«105460_j37082747634119_1_alg».proof.Proof.KI.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

instance nonemptyElt0 : ∀ e, Nonempty (Elt F e) := fun e => ⟨default⟩

/-- What the body leaves at a point: five output blocks and five accumulators. -/
structure St0 (F : FTy → Type) [FloatOps F] where
  o4 : Vec F S256x1 .f32
  o5 : Vec F S256x1 .f32
  o6 : Vec F S256x1 .f32
  o7 : Vec F S256x1 .f32
  o8 : Vec F S256x1 .f32
  s0 : Vec F S256x1 .f32
  s1 : Vec F S256x1 .f32
  s2 : Vec F S256x1 .f32
  s3 : Vec F S256x1 .f32
  s4 : Vec F S256x1 .f32

def idleOut0 : Vec F S256x1 .f32 := View.canon ([] : List (View.Piece (Elt F) S256x1 .f32))

/-- A whole buffer written through pieces that cover it holds the pieces' canonical contents. -/
theorem owns_of_writes (c : Dev nD) (M : Memref sig .tc .vmem S256x1 .f32) (L : List (View.Piece (Elt F) S256x1 .f32))
    (hL : ∀ y, ∃ pc ∈ L, y ∈ pc.1.set) {d : Vec F S256x1 .f32} (hd : View.canon L = d) :
    (iprop(∃ f, M.view.loc (c : Thread nD τ) ↦[M.view.set]{fullShare} M.view.writes (Elt F) f L) : sProp 𝕄)
      ⊢ owns (c : Thread nD τ) M fullShare d := by
  subst hd
  unfold owns
  iintro ⟨%f, H⟩
  iexists _; isplitr
  swap; · iexact H
  ipureintro; exact View.read_writes_eq_canon _ _ _ hL

section Cases
variable (c : Dev nD) (t : Fin cfg0.N) (x0 x1 : Vec F S256x512 .f32) (x2 : Vec F S256x1 .i32) (x3 : Vec F S1x256 .i32)

/-- The body run at point `t` on the point's own buffers, by column block: first, inner, last. -/
def run0A (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) x0 x1 x2 x3
def run0B (h0 : ¬t.val % 16 = 0) (h1 : ¬t.val % 16 = 15) (p : St0 F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) x0 x1 x2 x3 p.s0 p.s1 p.s2 p.s3 p.s4
def run0C (h0 : ¬t.val % 16 = 0) (h1 : t.val % 16 = 15) (p : St0 F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) x0 x1 x2 x3 p.s0 p.s1 p.s2 p.s3 p.s4

end Cases

section Region
variable (V : (c : Dev nD) → (b : Ref sig .tc) → Buf (Elt F) ((c : Thread nD τ).loc b))

/-- What each case leaves, run on the point's input blocks. -/
def stA0 (c : Dev nD) (t : Fin cfg0.N) (h0 : t.val % 16 = 0) (h1 : ¬t.val % 16 = 15) : St0 F where
  o4 := idleOut0
  o5 := idleOut0
  o6 := idleOut0
  o7 := idleOut0
  o8 := idleOut0
  s0 := View.canon (run0A c t (iblk0 V c 0 t) (iblk0 V c 1 t) (iblk0 V c 2 t) (iblk0 V c 3 t) h0 h1).1
  s1 := View.canon (run0A c t (iblk0 V c 0 t) (iblk0 V c 1 t) (iblk0 V c 2 t) (iblk0 V c 3 t) h0 h1).2.1
  s2 := View.canon (run0A c t (iblk0 V c 0 t) (iblk0 V c 1 t) (iblk0 V c 2 t) (iblk0 V c 3 t) h0 h1).2.2.1
  s3 := View.canon (run0A c t (iblk0 V c 0 t) (iblk0 V c 1 t) (iblk0 V c 2 t) (iblk0 V c 3 t) h0 h1).2.2.2.1
  s4 := View.canon (run0A c t (iblk0 V c 0 t) (iblk0 V c 1 t) (iblk0 V c 2 t) (iblk0 V c 3 t) h0 h1).2.2.2.2.1
def stB0 (c : Dev nD) (t : Fin cfg0.N) (h0 : ¬t.val % 16 = 0) (h1 : ¬t.val % 16 = 15) (p : St0 F) : St0 F where
  o4 := idleOut0
  o5 := idleOut0
  o6 := idleOut0
  o7 := idleOut0
  o8 := idleOut0
  s0 := View.canon (run0B c t (iblk0 V c 0 t) (iblk0 V c 1 t) (iblk0 V c 2 t) (iblk0 V c 3 t) h0 h1 p).1
  s1 := View.canon (run0B c t (iblk0 V c 0 t) (iblk0 V c 1 t) (iblk0 V c 2 t) (iblk0 V c 3 t) h0 h1 p).2.1
  s2 := View.canon (run0B c t (iblk0 V c 0 t) (iblk0 V c 1 t) (iblk0 V c 2 t) (iblk0 V c 3 t) h0 h1 p).2.2.1
  s3 := View.canon (run0B c t (iblk0 V c 0 t) (iblk0 V c 1 t) (iblk0 V c 2 t) (iblk0 V c 3 t) h0 h1 p).2.2.2.1
  s4 := View.canon (run0B c t (iblk0 V c 0 t) (iblk0 V c 1 t) (iblk0 V c 2 t) (iblk0 V c 3 t) h0 h1 p).2.2.2.2.1
def stC0 (c : Dev nD) (t : Fin cfg0.N) (h0 : ¬t.val % 16 = 0) (h1 : t.val % 16 = 15) (p : St0 F) : St0 F where
  o4 := View.canon (run0C c t (iblk0 V c 0 t) (iblk0 V c 1 t) (iblk0 V c 2 t) (iblk0 V c 3 t) h0 h1 p).1
  o5 := View.canon (run0C c t (iblk0 V c 0 t) (iblk0 V c 1 t) (iblk0 V c 2 t) (iblk0 V c 3 t) h0 h1 p).2.1
  o6 := View.canon (run0C c t (iblk0 V c 0 t) (iblk0 V c 1 t) (iblk0 V c 2 t) (iblk0 V c 3 t) h0 h1 p).2.2.1
  o7 := View.canon (run0C c t (iblk0 V c 0 t) (iblk0 V c 1 t) (iblk0 V c 2 t) (iblk0 V c 3 t) h0 h1 p).2.2.2.1
  o8 := View.canon (run0C c t (iblk0 V c 0 t) (iblk0 V c 1 t) (iblk0 V c 2 t) (iblk0 V c 3 t) h0 h1 p).2.2.2.2.1
  s0 := View.canon (run0C c t (iblk0 V c 0 t) (iblk0 V c 1 t) (iblk0 V c 2 t) (iblk0 V c 3 t) h0 h1 p).2.2.2.2.2.1
  s1 := View.canon (run0C c t (iblk0 V c 0 t) (iblk0 V c 1 t) (iblk0 V c 2 t) (iblk0 V c 3 t) h0 h1 p).2.2.2.2.2.2.1
  s2 := View.canon (run0C c t (iblk0 V c 0 t) (iblk0 V c 1 t) (iblk0 V c 2 t) (iblk0 V c 3 t) h0 h1 p).2.2.2.2.2.2.2.1
  s3 := View.canon (run0C c t (iblk0 V c 0 t) (iblk0 V c 1 t) (iblk0 V c 2 t) (iblk0 V c 3 t) h0 h1 p).2.2.2.2.2.2.2.2.1
  s4 := View.canon (run0C c t (iblk0 V c 0 t) (iblk0 V c 1 t) (iblk0 V c 2 t) (iblk0 V c 3 t) h0 h1 p).2.2.2.2.2.2.2.2.2.1

-- The pieces a case stores into a buffer tile it.
section
variable (c : Dev nD) (t : Fin cfg0.N) (h0 : t.val % 16 = 0) (h1 : ¬t.val % 16 = 15) (y : S256x1.Idx)
theorem scover0_A_0 : ∃ pc ∈ (run0A c t (iblk0 V c 0 t) (iblk0 V c 1 t) (iblk0 V c 2 t) (iblk0 V c 3 t) h0 h1).1, y ∈ pc.1.set := View.cover_of_tiledL _ S256x1.size (by sl_kernel_rfl) y
theorem scover0_A_1 : ∃ pc ∈ (run0A c t (iblk0 V c 0 t) (iblk0 V c 1 t) (iblk0 V c 2 t) (iblk0 V c 3 t) h0 h1).2.1, y ∈ pc.1.set := View.cover_of_tiledL _ S256x1.size (by sl_kernel_rfl) y
theorem scover0_A_2 : ∃ pc ∈ (run0A c t (iblk0 V c 0 t) (iblk0 V c 1 t) (iblk0 V c 2 t) (iblk0 V c 3 t) h0 h1).2.2.1, y ∈ pc.1.set := View.cover_of_tiledL _ S256x1.size (by sl_kernel_rfl) y
theorem scover0_A_3 : ∃ pc ∈ (run0A c t (iblk0 V c 0 t) (iblk0 V c 1 t) (iblk0 V c 2 t) (iblk0 V c 3 t) h0 h1).2.2.2.1, y ∈ pc.1.set := View.cover_of_tiledL _ S256x1.size (by sl_kernel_rfl) y
theorem scover0_A_4 : ∃ pc ∈ (run0A c t (iblk0 V c 0 t) (iblk0 V c 1 t) (iblk0 V c 2 t) (iblk0 V c 3 t) h0 h1).2.2.2.2.1, y ∈ pc.1.set := View.cover_of_tiledL _ S256x1.size (by sl_kernel_rfl) y
end
section
variable (c : Dev nD) (t : Fin cfg0.N) (h0 : ¬t.val % 16 = 0) (h1 : ¬t.val % 16 = 15) (p : St0 F) (y : S256x1.Idx)
theorem scover0_B_0 : ∃ pc ∈ (run0B c t (iblk0 V c 0 t) (iblk0 V c 1 t) (iblk0 V c 2 t) (iblk0 V c 3 t) h0 h1 p).1, y ∈ pc.1.set := View.cover_of_tiledL _ S256x1.size (by sl_kernel_rfl) y
theorem scover0_B_1 : ∃ pc ∈ (run0B c t (iblk0 V c 0 t) (iblk0 V c 1 t) (iblk0 V c 2 t) (iblk0 V c 3 t) h0 h1 p).2.1, y ∈ pc.1.set := View.cover_of_tiledL _ S256x1.size (by sl_kernel_rfl) y
theorem scover0_B_2 : ∃ pc ∈ (run0B c t (iblk0 V c 0 t) (iblk0 V c 1 t) (iblk0 V c 2 t) (iblk0 V c 3 t) h0 h1 p).2.2.1, y ∈ pc.1.set := View.cover_of_tiledL _ S256x1.size (by sl_kernel_rfl) y
theorem scover0_B_3 : ∃ pc ∈ (run0B c t (iblk0 V c 0 t) (iblk0 V c 1 t) (iblk0 V c 2 t) (iblk0 V c 3 t) h0 h1 p).2.2.2.1, y ∈ pc.1.set := View.cover_of_tiledL _ S256x1.size (by sl_kernel_rfl) y
theorem scover0_B_4 : ∃ pc ∈ (run0B c t (iblk0 V c 0 t) (iblk0 V c 1 t) (iblk0 V c 2 t) (iblk0 V c 3 t) h0 h1 p).2.2.2.2.1, y ∈ pc.1.set := View.cover_of_tiledL _ S256x1.size (by sl_kernel_rfl) y
end
section
variable (c : Dev nD) (t : Fin cfg0.N) (h0 : ¬t.val % 16 = 0) (h1 : t.val % 16 = 15) (p : St0 F) (y : S256x1.Idx)
theorem scover0_C_0 : ∃ pc ∈ (run0C c t (iblk0 V c 0 t) (iblk0 V c 1 t) (iblk0 V c 2 t) (iblk0 V c 3 t) h0 h1 p).2.2.2.2.2.1, y ∈ pc.1.set := View.cover_of_tiledL _ S256x1.size (by sl_kernel_rfl) y
theorem scover0_C_1 : ∃ pc ∈ (run0C c t (iblk0 V c 0 t) (iblk0 V c 1 t) (iblk0 V c 2 t) (iblk0 V c 3 t) h0 h1 p).2.2.2.2.2.2.1, y ∈ pc.1.set := View.cover_of_tiledL _ S256x1.size (by sl_kernel_rfl) y
theorem scover0_C_2 : ∃ pc ∈ (run0C c t (iblk0 V c 0 t) (iblk0 V c 1 t) (iblk0 V c 2 t) (iblk0 V c 3 t) h0 h1 p).2.2.2.2.2.2.2.1, y ∈ pc.1.set := View.cover_of_tiledL _ S256x1.size (by sl_kernel_rfl) y
theorem scover0_C_3 : ∃ pc ∈ (run0C c t (iblk0 V c 0 t) (iblk0 V c 1 t) (iblk0 V c 2 t) (iblk0 V c 3 t) h0 h1 p).2.2.2.2.2.2.2.2.1, y ∈ pc.1.set := View.cover_of_tiledL _ S256x1.size (by sl_kernel_rfl) y
theorem scover0_C_4 : ∃ pc ∈ (run0C c t (iblk0 V c 0 t) (iblk0 V c 1 t) (iblk0 V c 2 t) (iblk0 V c 3 t) h0 h1 p).2.2.2.2.2.2.2.2.2.1, y ∈ pc.1.set := View.cover_of_tiledL _ S256x1.size (by sl_kernel_rfl) y
theorem cover0_C_4 : ∃ pc ∈ (run0C c t (iblk0 V c 0 t) (iblk0 V c 1 t) (iblk0 V c 2 t) (iblk0 V c 3 t) h0 h1 p).1, y ∈ pc.1.set := View.cover_of_tiledL _ S256x1.size (by sl_kernel_rfl) y
theorem cover0_C_5 : ∃ pc ∈ (run0C c t (iblk0 V c 0 t) (iblk0 V c 1 t) (iblk0 V c 2 t) (iblk0 V c 3 t) h0 h1 p).2.1, y ∈ pc.1.set := View.cover_of_tiledL _ S256x1.size (by sl_kernel_rfl) y
theorem cover0_C_6 : ∃ pc ∈ (run0C c t (iblk0 V c 0 t) (iblk0 V c 1 t) (iblk0 V c 2 t) (iblk0 V c 3 t) h0 h1 p).2.2.1, y ∈ pc.1.set := View.cover_of_tiledL _ S256x1.size (by sl_kernel_rfl) y
theorem cover0_C_7 : ∃ pc ∈ (run0C c t (iblk0 V c 0 t) (iblk0 V c 1 t) (iblk0 V c 2 t) (iblk0 V c 3 t) h0 h1 p).2.2.2.1, y ∈ pc.1.set := View.cover_of_tiledL _ S256x1.size (by sl_kernel_rfl) y
theorem cover0_C_8 : ∃ pc ∈ (run0C c t (iblk0 V c 0 t) (iblk0 V c 1 t) (iblk0 V c 2 t) (iblk0 V c 3 t) h0 h1 p).2.2.2.2.1, y ∈ pc.1.set := View.cover_of_tiledL _ S256x1.size (by sl_kernel_rfl) y
end

/-- The state after the body at position `n`: the case the column block selects, over what the point before left. -/
def outsAt0 (c : Dev nD) : (n : ℕ) → n < cfg0.N → St0 F
  | 0, hn => stA0 V c ⟨0, hn⟩ (Nat.zero_mod _) (by show ¬(0 : ℕ) % 16 = 15; decide)
  | n + 1, hn =>
    if h0 : (n + 1) % 16 = 0 then stA0 V c ⟨n + 1, hn⟩ h0 (by show ¬(n + 1) % 16 = 15; omega)
    else if h1 : (n + 1) % 16 = 15 then stC0 V c ⟨n + 1, hn⟩ h0 h1 (outsAt0 c n (Nat.lt_of_succ_lt hn))
    else stB0 V c ⟨n + 1, hn⟩ h0 h1 (outsAt0 c n (Nat.lt_of_succ_lt hn))

abbrev prev0 (c : Dev nD) (t : Fin cfg0.N) : St0 F := outsAt0 V c (t.val - 1) (Nat.lt_of_le_of_lt (Nat.sub_le _ _) t.isLt)

theorem outsAt0_A (c : Dev nD) (t : Fin cfg0.N) (h0 : t.val % 16 = 0) (h1 : ¬t.val % 16 = 15) : outsAt0 V c t.val t.isLt = stA0 V c t h0 h1 := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) : outsAt0 V c t.val t.isLt = stB0 V c t h0 h1 (prev0 V c t) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) : outsAt0 V c t.val t.isLt = stC0 V c t h0 h1 (prev0 V c t) := by
  obtain ⟨n, hn⟩ := t
  cases n with
  | zero => exact absurd (Nat.zero_mod _) h0
  | succ n => exact (dif_neg h0).trans ((dif_pos h1).trans rfl)

/-- The accumulators owned at a state's values, beside the buffers the kernel does not name and the generator register. -/
def accOwn0 (c : Dev nD) (s : St0 F) : sProp 𝕄 :=
  iprop(iprop(owns (c : Thread nD τ) scM0_0 fullShare s.s0 ∗ owns (c : Thread nD τ) scM0_1 fullShare s.s1 ∗ owns (c : Thread nD τ) scM0_2 fullShare s.s2 ∗ owns (c : Thread nD τ) scM0_3 fullShare s.s3 ∗ owns (c : Thread nD τ) scM0_4 fullShare s.s4 ∗ rest0 c) ∗ (∃ r, prngReg c r))

/-- The region invariant before position `n`: the class's before the first point, afterwards the accumulators at what the point before left. -/
def PhiS0 (c : Dev nD) : (n : ℕ) → n ≤ cfg0.N → sProp 𝕄
  | 0, _ => Pipeline.ΦA spec0 c
  | n + 1, hn => accOwn0 c (outsAt0 V c n hn)

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) : PhiS0 V c n h = accOwn0 c (outsAt0 V c (n - 1) (by omega)) := by
  cases n with
  | zero => exact absurd rfl hz
  | succ n => rfl

/-- Owning the accumulators at known values is owning them at some values. -/
theorem accOwn0_weak (c : Dev nD) (s : St0 F) : accOwn0 c s ⊢ Pipeline.ΦA spec0 c := by
  rw [PhiA0_eq]; unfold accOwn0
  iintro ⟨⟨HS0, HS1, HS2, HS3, HS4, Hrest⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexact Hrest
  iexact Hg

theorem PhiS0_weak (c : Dev nD) (n : ℕ) (h : n ≤ cfg0.N) : PhiS0 V c n h ⊢ Pipeline.ΦA spec0 c := by
  cases n with
  | zero => exact .rfl
  | succ n => exact accOwn0_weak c _

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).o4
    | ⟨5, _⟩ => (outsAt0 V c t.val t.isLt).o5
    | ⟨6, _⟩ => (outsAt0 V c t.val t.isLt).o6
    | ⟨7, _⟩ => (outsAt0 V c t.val t.isLt).o7
    | ⟨8, _⟩ => (outsAt0 V c t.val t.isLt).o8
  Φ t := PhiS0 V c t.val (Nat.le_of_lt_succ t.isLt)
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]
theorem after0_8 (c : Dev nD) (t : Fin cfg0.N) : (dat0 V c).after 8 t = (outsAt0 V c t.val t.isLt).o8 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- After the body an input window's buffer still holds the point's block. -/
theorem leaves0_0 (c : Dev nD) (t : Fin cfg0.N) : (dat0 V c).leavesExact 0 t = owns (c : Thread nD τ) (ms0_0 t) fullShare (iblk0 V c 0 t) := by
  rw [← after0_0 V c t]
theorem leaves0_1 (c : Dev nD) (t : Fin cfg0.N) : (dat0 V c).leavesExact 1 t = owns (c : Thread nD τ) (ms0_1 t) fullShare (iblk0 V c 1 t) := by
  rw [← after0_1 V c t]
theorem leaves0_2 (c : Dev nD) (t : Fin cfg0.N) : (dat0 V c).leavesExact 2 t = owns (c : Thread nD τ) (ms0_2 t) fullShare (iblk0 V c 2 t) := by
  rw [← after0_2 V c t]
theorem leaves0_3 (c : Dev nD) (t : Fin cfg0.N) : (dat0 V c).leavesExact 3 t = owns (c : Thread nD τ) (ms0_3 t) fullShare (iblk0 V c 3 t) := by
  rw [← after0_3 V c t]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

end Region

end Cert.KernelIdeal.Hand

end
-- ==== Proof.KI.Body0A.lean ====
import proofs.«105460_j37082747634119_1_alg».proof.Proof.KI.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 8000000 in
theorem sound_body0_A (c : Dev nD) (t : Fin cfg0.N) (h0 : t.val % 16 = 0) (h1 : ¬t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = accOwn0 c (outsAt0 V c t.val t.isLt) from rfl]
  rw [leaves0_0, leaves0_1, leaves0_2, leaves0_3]
  rw [Dat.leavesExact_idle (dat0 V c) 4 t (idleAt0_4 t h1) (noFlush0_4 t h1)]
  rw [Dat.leavesExact_idle (dat0 V c) 5 t (idleAt0_5 t h1) (noFlush0_5 t h1)]
  rw [Dat.leavesExact_idle (dat0 V c) 6 t (idleAt0_6 t h1) (noFlush0_6 t h1)]
  rw [Dat.leavesExact_idle (dat0 V c) 7 t (idleAt0_7 t h1) (noFlush0_7 t h1)]
  rw [Dat.leavesExact_idle (dat0 V c) 8 t (idleAt0_8 t h1) (noFlush0_8 t h1)]
  rw [outsAt0_A V c t h0 h1]
  unfold stA0 accOwn0; (try dsimp only)
  rw [PhiS0_castSucc V c t]
  refine (sep_mono (PhiS0_weak V c _ _) .rfl).trans ?_
  rw [PhiA0_eq]
  iintro ⟨⟨⟨HS0, HS1, HS2, HS3, HS4, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run0A c t (iblk0 V c 0 t) (iblk0 V c 1 t) (iblk0 V c 2 t) (iblk0 V c 3 t) h0 h1).2.2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hrest Hg]
  · isplitr [Hg]
    · isplitl [HS0]; · iapply owns_of_writes c _ _ (scover0_A_0 V c t h0 h1) rfl; iexact HS0
      isplitl [HS1]; · iapply owns_of_writes c _ _ (scover0_A_1 V c t h0 h1) rfl; iexact HS1
      isplitl [HS2]; · iapply owns_of_writes c _ _ (scover0_A_2 V c t h0 h1) rfl; iexact HS2
      isplitl [HS3]; · iapply owns_of_writes c _ _ (scover0_A_3 V c t h0 h1) rfl; iexact HS3
      isplitl [HS4]; · iapply owns_of_writes c _ _ (scover0_A_4 V c t h0 h1) rfl; iexact HS4
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iexists _; iexact H8

end Region

end Cert.KernelIdeal.Hand

end
-- ==== Proof.KI.Body0B.lean ====
import proofs.«105460_j37082747634119_1_alg».proof.Proof.KI.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 8000000 in
theorem sound_body0_B (c : Dev nD) (t : Fin cfg0.N) (h0 : ¬t.val % 16 = 0) (h1 : ¬t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = accOwn0 c (outsAt0 V c t.val t.isLt) from rfl]
  rw [leaves0_0, leaves0_1, leaves0_2, leaves0_3]
  rw [Dat.leavesExact_idle (dat0 V c) 4 t (idleAt0_4 t h1) (noFlush0_4 t h1)]
  rw [Dat.leavesExact_idle (dat0 V c) 5 t (idleAt0_5 t h1) (noFlush0_5 t h1)]
  rw [Dat.leavesExact_idle (dat0 V c) 6 t (idleAt0_6 t h1) (noFlush0_6 t h1)]
  rw [Dat.leavesExact_idle (dat0 V c) 7 t (idleAt0_7 t h1) (noFlush0_7 t h1)]
  rw [Dat.leavesExact_idle (dat0 V c) 8 t (idleAt0_8 t h1) (noFlush0_8 t h1)]
  rw [outsAt0_B V c t h0 h1]
  unfold stB0 accOwn0; (try dsimp only)
  have hz : t.val ≠ 0 := fun hz => h0 (by rw [hz])
  rw [PhiS0_castSucc V c t, PhiS0_pos V c _ _ hz]
  unfold accOwn0
  iintro ⟨⟨⟨HS0, HS1, HS2, HS3, HS4, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run0B c t (iblk0 V c 0 t) (iblk0 V c 1 t) (iblk0 V c 2 t) (iblk0 V c 3 t) h0 h1 (prev0 V c t)).2.2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hrest Hg]
  · isplitr [Hg]
    · isplitl [HS0]; · iapply owns_of_writes c _ _ (scover0_B_0 V c t h0 h1 (prev0 V c t)) rfl; iexact HS0
      isplitl [HS1]; · iapply owns_of_writes c _ _ (scover0_B_1 V c t h0 h1 (prev0 V c t)) rfl; iexact HS1
      isplitl [HS2]; · iapply owns_of_writes c _ _ (scover0_B_2 V c t h0 h1 (prev0 V c t)) rfl; iexact HS2
      isplitl [HS3]; · iapply owns_of_writes c _ _ (scover0_B_3 V c t h0 h1 (prev0 V c t)) rfl; iexact HS3
      isplitl [HS4]; · iapply owns_of_writes c _ _ (scover0_B_4 V c t h0 h1 (prev0 V c t)) rfl; iexact HS4
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iexists _; iexact H8

end Region

end Cert.KernelIdeal.Hand

end
-- ==== Proof.KI.Body0C.lean ====
import proofs.«105460_j37082747634119_1_alg».proof.Proof.KI.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

set_option maxHeartbeats 2000000 in
theorem sound_body0_C (c : Dev nD) (t : Fin cfg0.N) (h0 : ¬t.val % 16 = 0) (h1 : t.val % 16 = 15) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = accOwn0 c (outsAt0 V c t.val t.isLt) from rfl]
  rw [leaves0_0, leaves0_1, leaves0_2, leaves0_3]
  rw [show (dat0 V c).leavesExact 4 t = owns (c : Thread nD τ) (ms0_4 t) fullShare ((dat0 V c).after 4 t) from by
    unfold Dat.leavesExact; rw [liveAt0_4_C t h1], after0_4]
  rw [show (dat0 V c).leavesExact 5 t = owns (c : Thread nD τ) (ms0_5 t) fullShare ((dat0 V c).after 5 t) from by
    unfold Dat.leavesExact; rw [liveAt0_5_C t h1], after0_5]
  rw [show (dat0 V c).leavesExact 6 t = owns (c : Thread nD τ) (ms0_6 t) fullShare ((dat0 V c).after 6 t) from by
    unfold Dat.leavesExact; rw [liveAt0_6_C t h1], after0_6]
  rw [show (dat0 V c).leavesExact 7 t = owns (c : Thread nD τ) (ms0_7 t) fullShare ((dat0 V c).after 7 t) from by
    unfold Dat.leavesExact; rw [liveAt0_7_C t h1], after0_7]
  rw [show (dat0 V c).leavesExact 8 t = owns (c : Thread nD τ) (ms0_8 t) fullShare ((dat0 V c).after 8 t) from by
    unfold Dat.leavesExact; rw [liveAt0_8_C t h1], after0_8]
  rw [PhiS0_castSucc V c t, PhiS0_pos V c _ _ (fun hz => h0 (by rw [hz]))]
  unfold accOwn0
  have hS := outsAt0_C V c t h0 h1
  unfold prev0 at hS
  generalize outsAt0 V c t.val t.isLt = S at hS ⊢
  generalize outsAt0 V c (t.val - 1) (Nat.lt_of_le_of_lt (Nat.sub_le _ _) t.isLt) = P at hS ⊢
  iintro ⟨⟨⟨HS0, HS1, HS2, HS3, HS4, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run0C c t (iblk0 V c 0 t) (iblk0 V c 1 t) (iblk0 V c 2 t) (iblk0 V c 3 t) h0 h1 P).2.2.2.2.2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hrest Hg]
  · isplitr [Hg]
    · isplitl [HS0]; · iapply owns_of_writes c _ _ (scover0_C_0 V c t h0 h1 P) (congrArg St0.s0 hS).symm; iexact HS0
      isplitl [HS1]; · iapply owns_of_writes c _ _ (scover0_C_1 V c t h0 h1 P) (congrArg St0.s1 hS).symm; iexact HS1
      isplitl [HS2]; · iapply owns_of_writes c _ _ (scover0_C_2 V c t h0 h1 P) (congrArg St0.s2 hS).symm; iexact HS2
      isplitl [HS3]; · iapply owns_of_writes c _ _ (scover0_C_3 V c t h0 h1 P) (congrArg St0.s3 hS).symm; iexact HS3
      isplitl [HS4]; · iapply owns_of_writes c _ _ (scover0_C_4 V c t h0 h1 P) (congrArg St0.s4 hS).symm; iexact HS4
      iexact Hrest
    iexact Hg
  isplitl [Ho]; · iexact Ho
  isplitl [H0]; · iexact H0
  isplitl [H1]; · iexact H1
  isplitl [H2]; · iexact H2
  isplitl [H3]; · iexact H3
  isplitl [H4]; · iapply owns_of_writes c _ _ (cover0_C_4 V c t h0 h1 P) (congrArg St0.o4 hS).symm; iexact H4
  isplitl [H5]; · iapply owns_of_writes c _ _ (cover0_C_5 V c t h0 h1 P) (congrArg St0.o5 hS).symm; iexact H5
  isplitl [H6]; · iapply owns_of_writes c _ _ (cover0_C_6 V c t h0 h1 P) (congrArg St0.o6 hS).symm; iexact H6
  isplitl [H7]; · iapply owns_of_writes c _ _ (cover0_C_7 V c t h0 h1 P) (congrArg St0.o7 hS).symm; iexact H7
  iapply owns_of_writes c _ _ (cover0_C_8 V c t h0 h1 P) (congrArg St0.o8 hS).symm; iexact H8

end Region

end Cert.KernelIdeal.Hand

end
-- ==== Proof.KI.Body0.lean ====
import proofs.«105460_j37082747634119_1_alg».proof.Proof.KI.Body0A
import proofs.«105460_j37082747634119_1_alg».proof.Proof.KI.Body0B
import proofs.«105460_j37082747634119_1_alg».proof.Proof.KI.Body0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

theorem body_obligation0 (c : Dev nD) : BodyObligation (dat0 (F := F) V c) (defs₀ (F := F)) Variants.none () Set.univ := fun t => by
  rw [bigSep_W0, bigSep_W0]
  by_cases h0 : t.val % 16 = 0
  · exact sound_body0_A V c t h0 (by omega)
  · by_cases h1 : t.val % 16 = 15
    · exact sound_body0_C V c t h0 h1
    · exact sound_body0_B V c t h0 h1

theorem hin0 (c : Dev nD) : Pipeline.ΦA spec0 c ⊢ (dat0 V c).Φ 0 := .rfl

theorem hout0 (c : Dev nD) : (dat0 V c).Φ (Fin.last cfg0.N) ⊢ Pipeline.ΦA spec0 c := PhiS0_weak V c (Fin.last cfg0.N).val (Nat.le_of_lt_succ (Fin.last cfg0.N).isLt)

end Region

end Cert.KernelIdeal.Hand

end
-- ==== Proof.KI.Run1A.lean ====
import proofs.«105460_j37082747634119_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : cond1_0 i) (hc1 : ¬cond1_1 i)
    (x0 : Vec F S256x512 .f32) (x1 : Vec F S256x512 .f32) (x2 : Vec F S256x1 .i32) (x3 : Vec F S1x256 .i32) (x4 : Vec F S256x1 .f32) :
    Σ' (LS0 : List (View.Piece (Elt F) S256x1 .f32)), { LS1 : List (View.Piece (Elt F) S256x1 .f32) //
      ∀ (xi5 : Vec F S256x1 .f32) (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1_pass2_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc1_pass2_kernel_eq_skeleton]; unfold cc1_pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

end Cert.KernelIdeal.Hand

end
-- ==== Proof.KI.Run1B.lean ====
import proofs.«105460_j37082747634119_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : ¬cond1_0 i) (hc1 : ¬cond1_1 i)
    (x0 : Vec F S256x512 .f32) (x1 : Vec F S256x512 .f32) (x2 : Vec F S256x1 .i32) (x3 : Vec F S1x256 .i32) (x4 : Vec F S256x1 .f32) (xs0 : Vec F S256x1 .f32) (xs1 : Vec F S256x1 .f32) :
    Σ' (LS0 : List (View.Piece (Elt F) S256x1 .f32)), { LS1 : List (View.Piece (Elt F) S256x1 .f32) //
      ∀ (xi5 : Vec F S256x1 .f32) (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1_pass2_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc1_pass2_kernel_eq_skeleton]; unfold cc1_pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

end Cert.KernelIdeal.Hand

end
-- ==== Proof.KI.Run1C.lean ====
import proofs.«105460_j37082747634119_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x1 .i32) (harg4 : arg4.IsWhole) (arg5 : Memref sig .tc .vmem S1x256 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : ¬cond1_0 i) (hc1 : cond1_1 i)
    (x0 : Vec F S256x512 .f32) (x1 : Vec F S256x512 .f32) (x2 : Vec F S256x1 .i32) (x3 : Vec F S1x256 .i32) (x4 : Vec F S256x1 .f32) (xs0 : Vec F S256x1 .f32) (xs1 : Vec F S256x1 .f32) :
    Σ' (L5 : List (View.Piece (Elt F) S256x1 .f32)) (L6 : List (View.Piece (Elt F) S256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1_pass2_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1_pass2_kernel_eq_skeleton]; unfold cc1_pass2_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact H10

end Cert.KernelIdeal.Hand

end
-- ==== Proof.KI.Region1.lean ====
import proofs.«105460_j37082747634119_1_alg».proof.Proof.KI.Run1A
import proofs.«105460_j37082747634119_1_alg».proof.Proof.KI.Run1B
import proofs.«105460_j37082747634119_1_alg».proof.Proof.KI.Run1C
import proofs.«105460_j37082747634119_1_alg».proof.Proof.KI.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

instance nonemptyElt1 : ∀ e, Nonempty (Elt F e) := fun e => ⟨default⟩

/-- What the body leaves at a point: two output blocks and two accumulators. -/
structure St1 (F : FTy → Type) [FloatOps F] where
  o5 : Vec F S256x1 .f32
  o6 : Vec F S256x1 .f32
  s0 : Vec F S256x1 .f32
  s1 : Vec F S256x1 .f32

def idleOut1 : Vec F S256x1 .f32 := View.canon ([] : List (View.Piece (Elt F) S256x1 .f32))

section Cases
variable (c : Dev nD) (t : Fin cfg1.N) (x0 x1 : Vec F S256x512 .f32) (x2 : Vec F S256x1 .i32) (x3 : Vec F S1x256 .i32) (x4 : Vec F S256x1 .f32)

def run1A (h0 : t.val % 16 = 0) (h1 : ¬t.val % 16 = 15) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) x0 x1 x2 x3 x4
def run1B (h0 : ¬t.val % 16 = 0) (h1 : ¬t.val % 16 = 15) (p : St1 F) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) x0 x1 x2 x3 x4 p.s0 p.s1
def run1C (h0 : ¬t.val % 16 = 0) (h1 : t.val % 16 = 15) (p : St1 F) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) x0 x1 x2 x3 x4 p.s0 p.s1

end Cases

section Region
variable (V : (c : Dev nD) → (b : Ref sig .tc) → Buf (Elt F) ((c : Thread nD τ).loc b))

def stA1 (c : Dev nD) (t : Fin cfg1.N) (h0 : t.val % 16 = 0) (h1 : ¬t.val % 16 = 15) : St1 F :=
  ⟨idleOut1, idleOut1, View.canon (run1A c t (iblk1 V c 0 t) (iblk1 V c 1 t) (iblk1 V c 2 t) (iblk1 V c 3 t) (iblk1 V c 4 t) h0 h1).1, View.canon (run1A c t (iblk1 V c 0 t) (iblk1 V c 1 t) (iblk1 V c 2 t) (iblk1 V c 3 t) (iblk1 V c 4 t) h0 h1).2.1⟩
def stB1 (c : Dev nD) (t : Fin cfg1.N) (h0 : ¬t.val % 16 = 0) (h1 : ¬t.val % 16 = 15) (p : St1 F) : St1 F :=
  ⟨idleOut1, idleOut1, View.canon (run1B c t (iblk1 V c 0 t) (iblk1 V c 1 t) (iblk1 V c 2 t) (iblk1 V c 3 t) (iblk1 V c 4 t) h0 h1 p).1, View.canon (run1B c t (iblk1 V c 0 t) (iblk1 V c 1 t) (iblk1 V c 2 t) (iblk1 V c 3 t) (iblk1 V c 4 t) h0 h1 p).2.1⟩
def stC1 (c : Dev nD) (t : Fin cfg1.N) (h0 : ¬t.val % 16 = 0) (h1 : t.val % 16 = 15) (p : St1 F) : St1 F :=
  ⟨View.canon (run1C c t (iblk1 V c 0 t) (iblk1 V c 1 t) (iblk1 V c 2 t) (iblk1 V c 3 t) (iblk1 V c 4 t) h0 h1 p).1, View.canon (run1C c t (iblk1 V c 0 t) (iblk1 V c 1 t) (iblk1 V c 2 t) (iblk1 V c 3 t) (iblk1 V c 4 t) h0 h1 p).2.1, View.canon (run1C c t (iblk1 V c 0 t) (iblk1 V c 1 t) (iblk1 V c 2 t) (iblk1 V c 3 t) (iblk1 V c 4 t) h0 h1 p).2.2.1, View.canon (run1C c t (iblk1 V c 0 t) (iblk1 V c 1 t) (iblk1 V c 2 t) (iblk1 V c 3 t) (iblk1 V c 4 t) h0 h1 p).2.2.2.1⟩

section
variable (c : Dev nD) (t : Fin cfg1.N) (h0 : t.val % 16 = 0) (h1 : ¬t.val % 16 = 15) (y : S256x1.Idx)
theorem scover1_A_0 : ∃ pc ∈ (run1A c t (iblk1 V c 0 t) (iblk1 V c 1 t) (iblk1 V c 2 t) (iblk1 V c 3 t) (iblk1 V c 4 t) h0 h1).1, y ∈ pc.1.set := View.cover_of_tiledL _ S256x1.size (by sl_kernel_rfl) y
theorem scover1_A_1 : ∃ pc ∈ (run1A c t (iblk1 V c 0 t) (iblk1 V c 1 t) (iblk1 V c 2 t) (iblk1 V c 3 t) (iblk1 V c 4 t) h0 h1).2.1, y ∈ pc.1.set := View.cover_of_tiledL _ S256x1.size (by sl_kernel_rfl) y
end
section
variable (c : Dev nD) (t : Fin cfg1.N) (h0 : ¬t.val % 16 = 0) (h1 : ¬t.val % 16 = 15) (p : St1 F) (y : S256x1.Idx)
theorem scover1_B_0 : ∃ pc ∈ (run1B c t (iblk1 V c 0 t) (iblk1 V c 1 t) (iblk1 V c 2 t) (iblk1 V c 3 t) (iblk1 V c 4 t) h0 h1 p).1, y ∈ pc.1.set := View.cover_of_tiledL _ S256x1.size (by sl_kernel_rfl) y
theorem scover1_B_1 : ∃ pc ∈ (run1B c t (iblk1 V c 0 t) (iblk1 V c 1 t) (iblk1 V c 2 t) (iblk1 V c 3 t) (iblk1 V c 4 t) h0 h1 p).2.1, y ∈ pc.1.set := View.cover_of_tiledL _ S256x1.size (by sl_kernel_rfl) y
end
section
variable (c : Dev nD) (t : Fin cfg1.N) (h0 : ¬t.val % 16 = 0) (h1 : t.val % 16 = 15) (p : St1 F) (y : S256x1.Idx)
theorem scover1_C_0 : ∃ pc ∈ (run1C c t (iblk1 V c 0 t) (iblk1 V c 1 t) (iblk1 V c 2 t) (iblk1 V c 3 t) (iblk1 V c 4 t) h0 h1 p).2.2.1, y ∈ pc.1.set := View.cover_of_tiledL _ S256x1.size (by sl_kernel_rfl) y
theorem scover1_C_1 : ∃ pc ∈ (run1C c t (iblk1 V c 0 t) (iblk1 V c 1 t) (iblk1 V c 2 t) (iblk1 V c 3 t) (iblk1 V c 4 t) h0 h1 p).2.2.2.1, y ∈ pc.1.set := View.cover_of_tiledL _ S256x1.size (by sl_kernel_rfl) y
theorem cover1_C_5 : ∃ pc ∈ (run1C c t (iblk1 V c 0 t) (iblk1 V c 1 t) (iblk1 V c 2 t) (iblk1 V c 3 t) (iblk1 V c 4 t) h0 h1 p).1, y ∈ pc.1.set := View.cover_of_tiledL _ S256x1.size (by sl_kernel_rfl) y
theorem cover1_C_6 : ∃ pc ∈ (run1C c t (iblk1 V c 0 t) (iblk1 V c 1 t) (iblk1 V c 2 t) (iblk1 V c 3 t) (iblk1 V c 4 t) h0 h1 p).2.1, y ∈ pc.1.set := View.cover_of_tiledL _ S256x1.size (by sl_kernel_rfl) y
end

def outsAt1 (c : Dev nD) : (n : ℕ) → n < cfg1.N → St1 F
  | 0, hn => stA1 V c ⟨0, hn⟩ (Nat.zero_mod _) (by show ¬(0 : ℕ) % 16 = 15; decide)
  | n + 1, hn =>
    if h0 : (n + 1) % 16 = 0 then stA1 V c ⟨n + 1, hn⟩ h0 (by show ¬(n + 1) % 16 = 15; omega)
    else if h1 : (n + 1) % 16 = 15 then stC1 V c ⟨n + 1, hn⟩ h0 h1 (outsAt1 c n (Nat.lt_of_succ_lt hn))
    else stB1 V c ⟨n + 1, hn⟩ h0 h1 (outsAt1 c n (Nat.lt_of_succ_lt hn))

abbrev prev1 (c : Dev nD) (t : Fin cfg1.N) : St1 F := outsAt1 V c (t.val - 1) (Nat.lt_of_le_of_lt (Nat.sub_le _ _) t.isLt)

theorem outsAt1_A (c : Dev nD) (t : Fin cfg1.N) (h0 : t.val % 16 = 0) (h1 : ¬t.val % 16 = 15) : outsAt1 V c t.val t.isLt = stA1 V c t h0 h1 := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) : outsAt1 V c t.val t.isLt = stB1 V c t h0 h1 (prev1 V c t) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) : outsAt1 V c t.val t.isLt = stC1 V c t h0 h1 (prev1 V c t) := by
  obtain ⟨n, hn⟩ := t
  cases n with
  | zero => exact absurd (Nat.zero_mod _) h0
  | succ n => exact (dif_neg h0).trans ((dif_pos h1).trans rfl)

def accOwn1 (c : Dev nD) (s : St1 F) : sProp 𝕄 :=
  iprop(iprop(iprop(owns (c : Thread nD τ) scM1_0 fullShare s.s0 ∗ owns (c : Thread nD τ) scM1_1 fullShare s.s1) ∗ rest1 c) ∗ (∃ r, prngReg c r))

def PhiS1 (c : Dev nD) : (n : ℕ) → n ≤ cfg1.N → sProp 𝕄
  | 0, _ => Pipeline.ΦA spec1 c
  | n + 1, hn => accOwn1 c (outsAt1 V c n hn)

theorem PhiS1_pos (c : Dev nD) (n : ℕ) (h : n ≤ cfg1.N) (hz : n ≠ 0) : PhiS1 V c n h = accOwn1 c (outsAt1 V c (n - 1) (by omega)) := by
  cases n with
  | zero => exact absurd rfl hz
  | succ n => rfl

theorem accOwn1_weak (c : Dev nD) (s : St1 F) : accOwn1 c s ⊢ Pipeline.ΦA spec1 c := by
  rw [PhiA1_eq]; unfold accOwn1
  iintro ⟨⟨⟨HS0, HS1⟩, Hrest⟩, Hg⟩
  isplitr [Hg]
  · isplitr [Hrest]
    · isplitl [HS0]; · iexists _; iexact HS0
      iexists _; iexact HS1
    iexact Hrest
  iexact Hg

theorem PhiS1_weak (c : Dev nD) (n : ℕ) (h : n ≤ cfg1.N) : PhiS1 V c n h ⊢ Pipeline.ΦA spec1 c := by
  cases n with
  | zero => exact .rfl
  | succ n => exact accOwn1_weak c _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).o5
    | ⟨6, _⟩ => (outsAt1 V c t.val t.isLt).o6
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).o5 := by dsimp only [dat1]
theorem after1_6 (c : Dev nD) (t : Fin cfg1.N) : (dat1 V c).after 6 t = (outsAt1 V c t.val t.isLt).o6 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem leaves1_0 (c : Dev nD) (t : Fin cfg1.N) : (dat1 V c).leavesExact 0 t = owns (c : Thread nD τ) (ms1_0 t) fullShare (iblk1 V c 0 t) := by
  rw [← after1_0 V c t]
theorem leaves1_1 (c : Dev nD) (t : Fin cfg1.N) : (dat1 V c).leavesExact 1 t = owns (c : Thread nD τ) (ms1_1 t) fullShare (iblk1 V c 1 t) := by
  rw [← after1_1 V c t]
theorem leaves1_2 (c : Dev nD) (t : Fin cfg1.N) : (dat1 V c).leavesExact 2 t = owns (c : Thread nD τ) (ms1_2 t) fullShare (iblk1 V c 2 t) := by
  rw [← after1_2 V c t]
theorem leaves1_3 (c : Dev nD) (t : Fin cfg1.N) : (dat1 V c).leavesExact 3 t = owns (c : Thread nD τ) (ms1_3 t) fullShare (iblk1 V c 3 t) := by
  rw [← after1_3 V c t]
theorem leaves1_4 (c : Dev nD) (t : Fin cfg1.N) : (dat1 V c).leavesExact 4 t = owns (c : Thread nD τ) (ms1_4 t) fullShare (iblk1 V c 4 t) := by
  rw [← after1_4 V c t]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000

theorem sound_body1_A (c : Dev nD) (t : Fin cfg1.N) (h0 : t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = accOwn1 c (outsAt1 V c t.val t.isLt) from rfl]
  rw [leaves1_0, leaves1_1, leaves1_2, leaves1_3, leaves1_4]
  rw [Dat.leavesExact_idle (dat1 V c) 5 t (idleAt1_5 t h1) (noFlush1_5 t h1)]
  rw [Dat.leavesExact_idle (dat1 V c) 6 t (idleAt1_6 t h1) (noFlush1_6 t h1)]
  rw [outsAt1_A V c t h0 h1]
  unfold stA1 accOwn1; (try dsimp only)
  rw [PhiS1_castSucc V c t]
  refine (sep_mono (PhiS1_weak V c _ _) .rfl).trans ?_
  rw [PhiA1_eq]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run1A c t (iblk1 V c 0 t) (iblk1 V c 1 t) (iblk1 V c 2 t) (iblk1 V c 3 t) (iblk1 V c 4 t) h0 h1).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hrest Hg]
  · isplitr [Hg]
    · isplitr [Hrest]
      · isplitl [HS0]; · iapply owns_of_writes c _ _ (scover1_A_0 V c t h0 h1) rfl; iexact HS0
        iapply owns_of_writes c _ _ (scover1_A_1 V c t h0 h1) rfl; iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = accOwn1 c (outsAt1 V c t.val t.isLt) from rfl]
  rw [leaves1_0, leaves1_1, leaves1_2, leaves1_3, leaves1_4]
  rw [Dat.leavesExact_idle (dat1 V c) 5 t (idleAt1_5 t h1) (noFlush1_5 t h1)]
  rw [Dat.leavesExact_idle (dat1 V c) 6 t (idleAt1_6 t h1) (noFlush1_6 t h1)]
  rw [outsAt1_B V c t h0 h1]
  unfold stB1 accOwn1; (try dsimp only)
  rw [PhiS1_castSucc V c t, PhiS1_pos V c _ _ (fun hz => h0 (by rw [hz]))]
  unfold accOwn1
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run1B c t (iblk1 V c 0 t) (iblk1 V c 1 t) (iblk1 V c 2 t) (iblk1 V c 3 t) (iblk1 V c 4 t) h0 h1 (prev1 V c t)).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hrest Hg]
  · isplitr [Hg]
    · isplitr [Hrest]
      · isplitl [HS0]; · iapply owns_of_writes c _ _ (scover1_B_0 V c t h0 h1 (prev1 V c t)) rfl; iexact HS0
        iapply owns_of_writes c _ _ (scover1_B_1 V c t h0 h1 (prev1 V c t)) rfl; iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

theorem sound_body1_C (c : Dev nD) (t : Fin cfg1.N) (h0 : ¬t.val % 16 = 0) (h1 : t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = accOwn1 c (outsAt1 V c t.val t.isLt) from rfl]
  rw [leaves1_0, leaves1_1, leaves1_2, leaves1_3, leaves1_4]
  rw [show (dat1 V c).leavesExact 5 t = owns (c : Thread nD τ) (ms1_5 t) fullShare ((dat1 V c).after 5 t) from by
    unfold Dat.leavesExact; rw [liveAt1_5_C t h1], after1_5]
  rw [show (dat1 V c).leavesExact 6 t = owns (c : Thread nD τ) (ms1_6 t) fullShare ((dat1 V c).after 6 t) from by
    unfold Dat.leavesExact; rw [liveAt1_6_C t h1], after1_6]
  rw [outsAt1_C V c t h0 h1]
  unfold stC1 accOwn1; (try dsimp only)
  rw [PhiS1_castSucc V c t, PhiS1_pos V c _ _ (fun hz => h0 (by rw [hz]))]
  unfold accOwn1
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run1C c t (iblk1 V c 0 t) (iblk1 V c 1 t) (iblk1 V c 2 t) (iblk1 V c 3 t) (iblk1 V c 4 t) h0 h1 (prev1 V c t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hrest Hg]
  · isplitr [Hg]
    · isplitr [Hrest]
      · isplitl [HS0]; · iapply owns_of_writes c _ _ (scover1_C_0 V c t h0 h1 (prev1 V c t)) rfl; iexact HS0
        iapply owns_of_writes c _ _ (scover1_C_1 V c t h0 h1 (prev1 V c t)) rfl; iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply owns_of_writes c _ _ (cover1_C_5 V c t h0 h1 (prev1 V c t)) rfl; iexact H5
  iapply owns_of_writes c _ _ (cover1_C_6 V c t h0 h1 (prev1 V c t)) rfl; iexact H6

theorem body_obligation1 (c : Dev nD) : BodyObligation (dat1 (F := F) V c) (defs₀ (F := F)) Variants.none () Set.univ := fun t => by
  rw [bigSep_W1, bigSep_W1]
  by_cases h0 : t.val % 16 = 0
  · exact sound_body1_A V c t h0 (by omega)
  · by_cases h1 : t.val % 16 = 15
    · exact sound_body1_C V c t h0 h1
    · exact sound_body1_B V c t h0 h1

theorem hin1 (c : Dev nD) : Pipeline.ΦA spec1 c ⊢ (dat1 V c).Φ 0 := .rfl

theorem hout1 (c : Dev nD) : (dat1 V c).Φ (Fin.last cfg1.N) ⊢ Pipeline.ΦA spec1 c := PhiS1_weak V c (Fin.last cfg1.N).val (Nat.le_of_lt_succ (Fin.last cfg1.N).isLt)

end Region

end Cert.KernelIdeal.Hand

end
-- ==== Proof.KI.Frame.lean ====
import proofs.«105460_j37082747634119_1_alg».proof.Proof.KI.Body0
import proofs.«105460_j37082747634119_1_alg».proof.Proof.KI.Region1
import proofs.«105460_j37082747634119_1_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.KernelIdeal Cert.KernelIdeal.Gen

variable {F : FTy → Type} [FloatOps F]

local notation "𝕄" => MT nD τ sig Unit (Elt F) ℕ (UR sig nD τ) ℕ

section Arrays

/-- The two halves of the full share of a buffer join to the full share. -/
theorem halves {ℓ : Loc nD τ sig} (v : Buf (Elt F) ℓ) (T : sProp 𝕄) :
    iprop((ℓ ↦{fullShare.left} v) ∗ (ℓ ↦{fullShare.right} v) ∗ T) = iprop((ℓ ↦{fullShare} v) ∗ T) := by
  have h : (ℓ ↦{fullShare} v : sProp 𝕄) ⊣⊢ _ := pointsTo_share (PosShare.mem_left_op_right fullShare)
  rw [Entails.antisymm h.1 h.2]
  exact sep_assoc'.antisymm sep_assoc

/-- For whole arrays, `arrays` is one points-to per window at that window's share. -/
theorem arrays_whole {cfg : Cfg sig Λ₀} {c : Dev nD} (d : Dat τ (Elt F) Unit ℕ (UR sig nD τ) ℕ cfg c) (h : ∀ w, (cfg.spec w).arr.IsWhole)
    (G : (w : Fin cfg.W) → Buf (Elt F) ((cfg.win w).arr.view.loc (c : Thread nD τ))) :
    (d.arrays G : sProp 𝕄) = bigSep Finset.univ fun w => ((c : Thread nD τ).loc (Pipeline.arrRef cfg.spec w)) ↦{d.share w} G w := by
  unfold Dat.arrays
  exact bigSep_congr fun w _ => by rw [(h w).set_eq_univ]

variable (V : (c : Dev nD) → (b : Ref sig .tc) → Buf (Elt F) ((c : Thread nD τ).loc b)) (c : Dev nD)
  (V' : (b : Ref sig .tc) → Buf (Elt F) ((c : Thread nD τ).loc b))

/-- Region 0's arrays at `G` are the buffers behind them at `V'`: the array windows 0 and 1 share is held in halves. -/
theorem arrays0 (G : (w : Fin cfg0.W) → Buf (Elt F) ((cfg0.win w).arr.view.loc (c : Thread nD τ))) (hG : ∀ w, G w = V' (Pipeline.arrRef spec0 w)) :
    ((dat0 V c).arrays G : sProp 𝕄) = Pipeline.arrBufs spec0 c V' := by
  obtain rfl := funext hG
  unfold Pipeline.arrBufs
  rw [arrays_whole (dat0 V c) arr_whole0, bigSep_W0,
    bigSep_eq_bigSepL_of_eq [main_arg0, main_v0, main_v1, main_v2_0, main_v2_1, main_v2_2, main_v2_3, main_v2_4] (by decide) (by decide)]
  exact halves _ _

/-- The same for region 1. -/
theorem arrays1 (G : (w : Fin cfg1.W) → Buf (Elt F) ((cfg1.win w).arr.view.loc (c : Thread nD τ))) (hG : ∀ w, G w = V' (Pipeline.arrRef spec1 w)) :
    ((dat1 V c).arrays G : sProp 𝕄) = Pipeline.arrBufs spec1 c V' := by
  obtain rfl := funext hG
  unfold Pipeline.arrBufs
  rw [arrays_whole (dat1 V c) arr_whole1, bigSep_W1,
    bigSep_eq_bigSepL_of_eq [main_arg0, main_v0, main_v1, main_v2_0, main_v3_0, main_v3_1] (by decide) (by decide)]
  exact halves _ _

/-- The held unscoped buffers split into pipeline `p`'s arrays and the rest, the rest at any contents agreeing off the arrays. -/
theorem held_eq (p : Fin 2) (hw : Pipeline.WinFacts₀ (cfgs p).spec) (W : Valuation τ sig (Elt F)) {A : sProp 𝕄}
    (ha : A = Pipeline.arrBufs (cfgs p).spec c fun b => W b)
    (hr : ∀ b, b ∉ Finset.univ.image (Pipeline.arrRef (cfgs p).spec) → W b = V' b) :
    (StableHlo.held (c : Thread nD τ) (Pipeline.ucRefs τ sig) W : sProp 𝕄) = iprop(A ∗ Pipeline.unscopedRest (cfgs p).spec c V') := by
  rw [← Pipeline.unscopedBufs_held, Pipeline.unscopedBufs_split₀ cfgs p hw.arr_unscoped, ha]
  unfold Pipeline.unscopedRest
  congr 1
  exact bigSep_congr fun b hb => by rw [← hr b (Finset.mem_sdiff.mp hb).2]

end Arrays

section Region
variable (c : Dev nD)

abbrev Pr : sProp 𝕄 := iprop(∃ r, prngReg c r)
abbrev Ow : sProp 𝕄 := iprop(∃ W, owes (c : Thread nD τ) (0 : CellTallies nD τ sig Unit) W)
/-- The state between items: every unscoped buffer at `W`, the generator register, nothing owed. -/
abbrev St (W : Dev nD → Valuation τ sig (Elt F)) : sProp 𝕄 :=
  iprop(StableHlo.held (c : Thread nD τ) (Pipeline.ucRefs τ sig) (W c) ∗ Pr c ∗ Ow c)

/-- Entering a region: the held buffers split (`hs`); everything else passes through. -/
theorem entry {H A Z Pf S : sProp 𝕄} {B : Set (SemLoc sig × Unit)} (hs : H = iprop(A ∗ Z)) (hB : ∀ x, x ∈ B) (hp : Pf = BI.emp := by exact BI.bigSep_empty) :
    iprop((H ∗ Pr c ∗ Ow c) ∗ S) ⊢ |={Set.univ}=> iprop(A ∗ Pf ∗ Pipeline.owesWithin c 0 B ∗ Pr c ∗ Z) := by
  subst hs hp
  iintro ⟨⟨⟨HA, HZ⟩, HP, %W, HO⟩, -⟩
  imodintro
  iframe
  isplitr; · iempintro
  iexists W; isplitr; · ipureintro; exact fun x _ => hB x
  iexact HO

/-- Leaving a region: the converse. -/
theorem exit {H A Z : sProp 𝕄} {B : Set (SemLoc sig × Unit)} (hj : H = iprop(A ∗ Z)) :
    iprop(A ∗ Pipeline.owesWithin c 0 B ∗ Pr c ∗ Z) ⊢ |={Set.univ}=> iprop(H ∗ Pr c ∗ Ow c) := by
  subst hj
  iintro ⟨HA, ⟨%W, -, HO⟩, HP, HZ⟩
  imodintro
  iframe
  iexists W; iexact HO

theorem hin_of {Pf Sr Φ : sProp 𝕄} (h : iprop(Sr ∗ Pr c) ⊢ Φ) : iprop(Pr c ∗ Pf ∗ Sr) ⊢ Φ := by
  iintro ⟨HP, -, HS⟩
  iapply h
  iframe

theorem hout_of {Sr Φ : sProp 𝕄} (h : Φ ⊢ iprop(Sr ∗ Pr c)) :
    Φ ⊢ iprop(Pr c ∗ Pipeline.ownSems0 (fun k : PEmpty => k.elim) c ∗ Sr) := by
  rw [Pipeline.ownSems0_none]
  refine h.trans ?_
  iintro ⟨HS, HP⟩
  iframe
  iempintro

end Region

section Run
variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its output arrays at their final contents, the rest unchanged. -/
def W2 (c : Dev nD) : Valuation τ sig (Elt F) :=
  Function.update (Function.update (Function.update (Function.update (Function.update (W1 m c)
    main_v2_0 ((dat0 (V1 m) c).arrAt 4 cfg0.N)) main_v2_1 ((dat0 (V1 m) c).arrAt 5 cfg0.N)) main_v2_2 ((dat0 (V1 m) c).arrAt 6 cfg0.N))
    main_v2_3 ((dat0 (V1 m) c).arrAt 7 cfg0.N)) main_v2_4 ((dat0 (V1 m) c).arrAt 8 cfg0.N)
abbrev V2 : (c : Dev nD) → (b : Ref sig .tc) → Buf (Elt F) ((c : Thread nD τ).loc b) := fun c b => W2 m c b
/-- After region 1, likewise. -/
def W3 (c : Dev nD) : Valuation τ sig (Elt F) :=
  Function.update (Function.update (W2 m c) main_v3_0 ((dat1 (V2 m) c).arrAt 5 cfg1.N)) main_v3_1 ((dat1 (V2 m) c).arrAt 6 cfg1.N)
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)

/-- An update at a different buffer is invisible. -/
theorem upd_ne {W : Valuation τ sig (Elt F)} {a r : Ref sig .tc} {v} (h : r ≠ a) :
    Function.update W (Proc.devRef .tc a) v (Proc.devRef .tc r) = W (Proc.devRef .tc r) :=
  Function.update_of_ne (StableHlo.devRef_ne_of_ne h) v W

theorem W2_of (c : Dev nD) (r : Ref sig .tc) (h : r ∉ ([main_v2_0, main_v2_1, main_v2_2, main_v2_3, main_v2_4] : List (Ref sig .tc))) :
    W2 m c r = W1 m c r := by
  simp only [List.mem_cons, List.not_mem_nil, or_false, not_or] at h
  unfold W2
  rw [upd_ne h.2.2.2.2, upd_ne h.2.2.2.1, upd_ne h.2.2.1, upd_ne h.2.1, upd_ne h.1]
theorem W3_of (c : Dev nD) (r : Ref sig .tc) (h : r ∉ ([main_v3_0, main_v3_1] : List (Ref sig .tc))) : W3 m c r = W2 m c r := by
  simp only [List.mem_cons, List.not_mem_nil, or_false, not_or] at h
  unfold W3
  rw [upd_ne h.2, upd_ne h.1]

theorem W2_v2_0 (c : Dev nD) : W2 m c main_v2_0 = (dat0 (V1 m) c).arrAt 4 cfg0.N := by
  unfold W2; rw [upd_ne (by decide), upd_ne (by decide), upd_ne (by decide), upd_ne (by decide), Function.update_self]
theorem W2_v2_1 (c : Dev nD) : W2 m c main_v2_1 = (dat0 (V1 m) c).arrAt 5 cfg0.N := by
  unfold W2; rw [upd_ne (by decide), upd_ne (by decide), upd_ne (by decide), Function.update_self]
theorem W2_v2_2 (c : Dev nD) : W2 m c main_v2_2 = (dat0 (V1 m) c).arrAt 6 cfg0.N := by
  unfold W2; rw [upd_ne (by decide), upd_ne (by decide), Function.update_self]
theorem W2_v2_3 (c : Dev nD) : W2 m c main_v2_3 = (dat0 (V1 m) c).arrAt 7 cfg0.N := by
  unfold W2; rw [upd_ne (by decide), Function.update_self]
theorem W2_v2_4 (c : Dev nD) : W2 m c main_v2_4 = (dat0 (V1 m) c).arrAt 8 cfg0.N := by
  unfold W2; rw [Function.update_self]
theorem W3_v3_0 (c : Dev nD) : W3 m c main_v3_0 = (dat1 (V2 m) c).arrAt 5 cfg1.N := by
  unfold W3; rw [upd_ne (by decide), Function.update_self]
theorem W3_v3_1 (c : Dev nD) : W3 m c main_v3_1 = (dat1 (V2 m) c).arrAt 6 cfg1.N := by
  unfold W3; rw [Function.update_self]

/-- A buffer that no item writes ends at its launch contents. -/
theorem W6_arg (c : Dev nD) (r : Ref sig .tc) (h0 : r ∉ hostOps0_W := by decide)
    (h1 : r ∉ ([main_v2_0, main_v2_1, main_v2_2, main_v2_3, main_v2_4] : List (Ref sig .tc)) := by decide)
    (h2 : r ∉ ([main_v3_0, main_v3_1] : List (Ref sig .tc)) := by decide) (h3 : r ∉ hostOps2_W := by decide) (h4 : r ∉ hostOps2_1_W := by decide)
    (h5 : r ∉ hostOps2_2_W := by decide) :
    W6 m c (Proc.devRef .tc r) = m ((c : Thread nD τ).loc r) :=
  (StableHlo.after_of_writes_sub hostOps2_2 _ hostOps2_2_writes h5).trans <| (StableHlo.after_of_writes_sub hostOps2_1 _ hostOps2_1_writes h4).trans <|
    (StableHlo.after_of_writes_sub hostOps2 _ hostOps2_writes h3).trans <| (W3_of m c r h2).trans <| (W2_of m c r h1).trans <|
    (StableHlo.after_of_writes_sub hostOps0 _ hostOps0_writes h0).trans rfl
theorem W6_main_arg0 (c : Dev nD) : W6 m c (Proc.devRef .tc main_arg0) = m ((c : Thread nD τ).loc main_arg0) :=
  W6_arg m c main_arg0
theorem W6_main_arg1 (c : Dev nD) : W6 m c (Proc.devRef .tc main_arg1) = m ((c : Thread nD τ).loc main_arg1) :=
  W6_arg m c main_arg1

/-- An input array ends as it began. -/
theorem inp {cfg : Cfg sig Λ₀} {c : Dev nD} (d : Dat τ (Elt F) Unit ℕ (UR sig nD τ) ℕ cfg c) (w : Fin cfg.W) {x} (h : x = d.A w)
    (hi : (cfg.win w).isOut = false := by rfl) : d.arrAt w cfg.N = x :=
  (d.arrAt_in w hi _).trans h.symm

/-- Region 0's arrays at the last point, read off `W2`; region 1's off `W3`. -/
theorem outs0 (c : Dev nD) : ∀ w, (dat0 (V1 m) c).arrAt w cfg0.N = W2 m c (Pipeline.arrRef spec0 w)
  | 0 => inp _ 0 (W2_of m c main_arg0 (by decide))
  | 1 => inp _ 1 (W2_of m c main_arg0 (by decide))
  | 2 => inp _ 2 (W2_of m c main_v0 (by decide))
  | 3 => inp _ 3 (W2_of m c main_v1 (by decide))
  | 4 => (W2_v2_0 m c).symm
  | 5 => (W2_v2_1 m c).symm
  | 6 => (W2_v2_2 m c).symm
  | 7 => (W2_v2_3 m c).symm
  | 8 => (W2_v2_4 m c).symm
  | ⟨_ + 9, h⟩ => absurd h (Nat.not_lt.2 (Nat.le_add_left _ _))
theorem outs1 (c : Dev nD) : ∀ w, (dat1 (V2 m) c).arrAt w cfg1.N = W3 m c (Pipeline.arrRef spec1 w)
  | 0 => inp _ 0 (W3_of m c main_arg0 (by decide))
  | 1 => inp _ 1 (W3_of m c main_arg0 (by decide))
  | 2 => inp _ 2 (W3_of m c main_v0 (by decide))
  | 3 => inp _ 3 (W3_of m c main_v1 (by decide))
  | 4 => inp _ 4 (W3_of m c main_v2_0 (by decide))
  | 5 => (W3_v3_0 m c).symm
  | 6 => (W3_v3_1 m c).symm
  | ⟨_ + 7, h⟩ => absurd h (Nat.not_lt.2 (Nat.le_add_left _ _))

end Run

section Segs
variable (m : (ℓ : Loc nD τ sig) → Buf (Elt F) ℓ) (ρ : Dev nD → PrngReg)

def pdats : (p : Fin 2) → (c : Dev nD) → Dat τ (Elt F) Unit ℕ (UR sig nD τ) ℕ (Pipeline.pin (pcfgs (F := F)) adm p) c
  | ⟨0, _⟩ => dat0 (V1 m)
  | ⟨1, _⟩ => dat1 (V2 m)
abbrev 𝒱₀ : Variants := Variants.none
abbrev L : GSem nD τ sig → Finset Unit := fun _ => ∅
abbrev lv : GSem nD τ sig → Unit → ℕ := fun _ _ => 0
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W fun c => iprop(Pr c ∗ Ow c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0 as a segment from `W1` to `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := St c (W1 m)
  post c := St c (W2 m)
  X c := Pr c
  Y c := Pr c
  Z c := Pipeline.unscopedRest spec0 c (V1 m c)
  hentry c := entry c (held_eq c (V1 m c) 0 winFacts₀0 (W1 m c) (arrays0 (V1 m) c _ _ fun _ => rfl) fun _ _ => rfl)
    fun _ => Or.inl trivial
  hin c := hin_of c (hin0 (V1 m) c)
  hout c := hout_of c (hout0 (V1 m) c)
  hexit c := exit c (held_eq c (V1 m c) 0 winFacts₀0 (W2 m c) (arrays0 (V1 m) c _ _ (outs0 m c)) fun b hb => W2_of m c b fun h =>
    hb ((by decide : ∀ b ∈ ([main_v2_0, main_v2_1, main_v2_2, main_v2_3, main_v2_4] : List (Ref sig .tc)), b ∈ Finset.univ.image (Pipeline.arrRef spec0)) b h))

/-- Region 1 as a segment from `W2` to `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := St c (W2 m)
  post c := St c (W3 m)
  X c := Pr c
  Y c := Pr c
  Z c := Pipeline.unscopedRest spec1 c (V2 m c)
  hentry c := entry c (held_eq c (V2 m c) 1 winFacts₀1 (W2 m c) (arrays1 (V2 m) c _ _ fun _ => rfl) fun _ _ => rfl)
    fun _ => Or.inl trivial
  hin c := hin_of c (hin1 (V2 m) c)
  hout c := hout_of c (hout1 (V2 m) c)
  hexit c := exit c (held_eq c (V2 m c) 1 winFacts₀1 (W3 m c) (arrays1 (V2 m) c _ _ (outs1 m c)) fun b hb => W3_of m c b fun h =>
    hb ((by decide : ∀ b ∈ ([main_v3_0, main_v3_1] : List (Ref sig .tc)), b ∈ Finset.univ.image (Pipeline.arrRef spec1)) b h))

/-- @main as segments: the host stretches and the two regions, in order. -/
abbrev segs : List (Pipeline.Seg (pcfgs (F := F)) adm (pdats m) () defs₀ 𝒱₀ L lv) :=
  [ .host (hseg hostOps0 hostOps0_sub hostOps0_fresh (W0 m)), .region (reg0 m), .region (reg1 m),
    .host (hseg hostOps2 hostOps2_sub hostOps2_fresh (W3 m)), .host (hseg hostOps2_1 hostOps2_1_sub hostOps2_1_fresh (W4 m)),
    .host (hseg hostOps2_2 hostOps2_2_sub hostOps2_2_fresh (W5 m)) ]

abbrev u₀ := initOf (Pipeline.cells cfgs cellOf_inj) (Pipeline.launchToks cfgs cellOf_inj)

/-- Every weakly fair run of @main terminates with the unscoped buffers at `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m c b) :=
  Pipeline.θ_run_regions_kit (pcfgs (F := F)) adm (pdats m) () cellOf_inj emb₁ defs₀ 𝒱₀ L lv m ρ main (segs m)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => iprop(emp))
    (u₀ := u₀)
    (hu₀ := by
      iintro Hu; imodintro
      isplitl [Hu]
      · iapply (show (ownU u₀ : sProp 𝕄) ⊢ BI.own (emb₁ u₀) from .rfl)
        iexact Hu
      iapply (Entails.of_eq (BI.bigSep_emp_const _).symm)
      iempintro)
    (T₀ := fun c => St c (W0 m)) (Tₙ := fun c => iprop(StableHlo.held (c : Thread nD τ) (Pipeline.ucRefs τ sig) (W6 m c) ∗ Pr c))
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = _ from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- Hence the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  OrdCont.mono (θ_run defs (onTc (τ := τ) (main (F := F))) ⟨m, fun _ => 0, ρ⟩) (fun r h c =>
    ⟨(h c _ (mem_uc main_arg0 (by decide))).trans (W6_main_arg0 m c),
     (h c _ (mem_uc main_arg1 (by decide))).trans (W6_main_arg1 m c)⟩) (run_all m ρ)

end Segs

end Cert.KernelIdeal.Hand

end
-- ==== Proof.KI.Fold.lean ====
import proofs.«105460_j37082747634119_1_alg».proof.Proof.Gen.KernelIdeal.Skeleton
import Idealize.ShloMosaic.Lib.ValueIdx

noncomputable section

namespace Cert.KernelIdeal.Hand

open Idealize.ShloMosaic Idealize.ShloMosaic.ValueIdx
open Cert.KernelIdeal Cert.KernelIdeal.Gen

variable {F : FTy → Type} [FloatOps F]

def rowsX (x : Vec F S4096x512 .f32) (b : ℕ) (hb : b < 16) : Vec F S256x512 .f32 :=
  fun y => x (ix2 (⟨256 * b + (y 0).val, by have := idx2_lt0 y; omega⟩ : Fin 4096) (⟨(y 1).val, idx2_lt1 y⟩ : Fin 512))

def rowsC {e : EltTy} (t : Vec F S4096x1 e) (b : ℕ) (hb : b < 16) : Vec F S256x1 e :=
  fun y => t (ix2 (⟨256 * b + (y 0).val, by have := idx2_lt0 y; omega⟩ : Fin 4096) (⟨(y 1).val, idx2_lt1 y⟩ : Fin 1))

def colsR {e : EltTy} (t : Vec F S1x4096 e) (b : ℕ) (hb : b < 16) : Vec F S1x256 e :=
  fun y => t (ix2 (⟨(y 0).val, idx2_lt0 y⟩ : Fin 1) (⟨256 * b + (y 1).val, by have := idx2_lt1 y; omega⟩ : Fin 4096))

theorem div16_lt {n : ℕ} (hn : n < 256) : n / 16 < 16 := by omega
theorem mod16_lt (n : ℕ) : n % 16 < 16 := Nat.mod_lt _ (by decide)

structure Acc0 (F : FTy → Type) [FloatOps F] where
  a0 : Vec F S256x1 .f32
  a1 : Vec F S256x1 .f32
  a2 : Vec F S256x1 .f32
  a3 : Vec F S256x1 .f32
  a4 : Vec F S256x1 .f32

def init0 : Acc0 F := ⟨k0_pay3, k0_pay4, k0_pay5, k0_pay6, k0_pay7⟩

def step0 (x : Vec F S4096x512 .f32) (tc : Vec F S4096x1 .i32) (tr : Vec F S1x4096 .i32) (n : ℕ) (hn : n < grid0.N) (p : Acc0 F) : Acc0 F :=
  have hN : n < 256 := lt_of_lt_of_eq hn (by decide)
  let D := k0_pay8 (rowsX x (n / 16) (div16_lt hN)) (rowsX x (n % 16) (mod16_lt n))
  let E := k0_pay9 (rowsC tc (n / 16) (div16_lt hN)) (colsR tr (n % 16) (mod16_lt n))
  let I := k0_pay10 (grid0.coords ⟨n, hn⟩)
  ⟨k0_pay13 D E I p.a0, k0_pay14 D E I p.a1, k0_pay15 E I p.a2, k0_pay1 p.a3 (k0_pay16 D E), k0_pay2 (k0_pay12 E) p.a4⟩

def accAt0 (x : Vec F S4096x512 .f32) (tc : Vec F S4096x1 .i32) (tr : Vec F S1x4096 .i32) : (n : ℕ) → n < grid0.N → Acc0 F
  | 0, hn => step0 x tc tr 0 hn init0
  | n + 1, hn => if (n + 1) % 16 = 0 then step0 x tc tr (n + 1) hn init0 else step0 x tc tr (n + 1) hn (accAt0 x tc tr n (Nat.lt_of_succ_lt hn))

structure Acc1 (F : FTy → Type) [FloatOps F] where
  a0 : Vec F S256x1 .f32
  a1 : Vec F S256x1 .f32

def init1 : Acc1 F := ⟨k1_pay4, k1_pay5⟩

def step1 (x : Vec F S4096x512 .f32) (tc : Vec F S4096x1 .i32) (tr : Vec F S1x4096 .i32) (pm : Vec F S4096x1 .f32) (n : ℕ) (hn : n < grid1.N) (p : Acc1 F) : Acc1 F :=
  have hN : n < 256 := lt_of_lt_of_eq hn (by decide)
  let D := k1_pay6 (rowsX x (n / 16) (div16_lt hN)) (rowsX x (n % 16) (mod16_lt n))
  let M := k1_pay7 (rowsC tc (n / 16) (div16_lt hN)) (colsR tr (n % 16) (mod16_lt n))
  let H := k1_pay8 (rowsX x (n / 16) (div16_lt hN)) (rowsX x (n % 16) (mod16_lt n)) (rowsC pm (n / 16) (div16_lt hN))
  ⟨k1_pay2 M H p.a0, k1_pay3 D M H p.a1⟩

def accAt1 (x : Vec F S4096x512 .f32) (tc : Vec F S4096x1 .i32) (tr : Vec F S1x4096 .i32) (pm : Vec F S4096x1 .f32) : (n : ℕ) → n < grid1.N → Acc1 F
  | 0, hn => step1 x tc tr pm 0 hn init1
  | n + 1, hn => if (n + 1) % 16 = 0 then step1 x tc tr pm (n + 1) hn init1 else step1 x tc tr pm (n + 1) hn (accAt1 x tc tr pm n (Nat.lt_of_succ_lt hn))

theorem last_lt {r : ℕ} (hr : r < 4096) : 16 * (r / 256) + 15 < 256 := by omega

def out0 (x : Vec F S4096x512 .f32) (tc : Vec F S4096x1 .i32) (tr : Vec F S1x4096 .i32) (sel : Acc0 F → Vec F S256x1 .f32) : Vec F S4096x1 .f32 :=
  fun y => sel (accAt0 x tc tr (16 * ((y 0).val / 256) + 15) (lt_of_lt_of_eq (last_lt (idx2_lt0 y)) (by decide)))
    (ix2 (⟨(y 0).val % 256, Nat.mod_lt _ (by decide)⟩ : Fin 256) (⟨0, by decide⟩ : Fin 1))

def out1 (x : Vec F S4096x512 .f32) (tc : Vec F S4096x1 .i32) (tr : Vec F S1x4096 .i32) (pm : Vec F S4096x1 .f32) (sel : Acc1 F → Vec F S256x1 .f32) : Vec F S4096x1 .f32 :=
  fun y => sel (accAt1 x tc tr pm (16 * ((y 0).val / 256) + 15) (lt_of_lt_of_eq (last_lt (idx2_lt0 y)) (by decide)))
    (ix2 (⟨(y 0).val % 256, Nat.mod_lt _ (by decide)⟩ : Fin 256) (⟨0, by decide⟩ : Fin 1))

end Cert.KernelIdeal.Hand

end
-- ==== Proof.KI.Value0.lean ====
import proofs.«105460_j37082747634119_1_alg».proof.Proof.KI.Region0
import proofs.«105460_j37082747634119_1_alg».proof.Proof.KI.Fold
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

def upd0 (i : grid0.Coords) (x0 x1 : Vec F S256x512 .f32) (x2 : Vec F S256x1 .i32) (x3 : Vec F S1x256 .i32) (p : Acc0 F) : Acc0 F :=
  ⟨k0_pay13 (k0_pay8 x0 x1) (k0_pay9 x2 x3) (k0_pay10 i) p.a0, k0_pay14 (k0_pay8 x0 x1) (k0_pay9 x2 x3) (k0_pay10 i) p.a1,
    k0_pay15 (k0_pay9 x2 x3) (k0_pay10 i) p.a2, k0_pay1 p.a3 (k0_pay16 (k0_pay8 x0 x1) (k0_pay9 x2 x3)),
    k0_pay2 (k0_pay12 (k0_pay9 x2 x3)) p.a4⟩

def accOf (s : St0 F) : Acc0 F := ⟨s.s0, s.s1, s.s2, s.s3, s.s4⟩
def outOf (s : St0 F) : Acc0 F := ⟨s.o4, s.o5, s.o6, s.o7, s.o8⟩

theorem Acc0.mk_congr {a0 a1 a2 a3 a4 b0 b1 b2 b3 b4 : Vec F S256x1 .f32} (h0 : a0 = b0) (h1 : a1 = b1) (h2 : a2 = b2) (h3 : a3 = b3)
    (h4 : a4 = b4) : (⟨a0, a1, a2, a3, a4⟩ : Acc0 F) = ⟨b0, b1, b2, b3, b4⟩ := by
  subst h0 h1 h2 h3 h4; rfl

section Pieces
variable (c : Dev nD) (t : Fin cfg0.N) (x0 x1 : Vec F S256x512 .f32) (x2 : Vec F S256x1 .i32) (x3 : Vec F S1x256 .i32)

/-- Every store writes a whole [256, 1] buffer, so what a buffer holds after a case is the payload of the last store into it. -/
theorem run0A_acc (h0 : t.val % 16 = 0) (h1 : ¬t.val % 16 = 15) :
    (⟨View.canon (run0A c t x0 x1 x2 x3 h0 h1).1, View.canon (run0A c t x0 x1 x2 x3 h0 h1).2.1, View.canon (run0A c t x0 x1 x2 x3 h0 h1).2.2.1, View.canon (run0A c t x0 x1 x2 x3 h0 h1).2.2.2.1, View.canon (run0A c t x0 x1 x2 x3 h0 h1).2.2.2.2.1⟩ : Acc0 F) = upd0 (grid0.coords t) x0 x1 x2 x3 init0 := by
  refine Acc0.mk_congr ?_ ?_ ?_ ?_ ?_ <;>
    (unfold run0A kernelRun0_A
     dsimp only [init0]
     sl_unfold_words
     first | rw [View.canon_cons_unit_zero (S := S256x1) hz2] | rw [View.canon_unit_zero hz2]
     simp only [View.readAt_eq_ld, (hs0_0 t).read_unread, (hs0_1 t).read_unread, (hs0_2 t).read_unread, (hs0_3 t).read_unread, (Memref.isWhole_whole _).read_unread, View.ld_unit_zero (S := S256x1) hz2, View.ld_unit_zero (S := S256x512) hz2, View.ld_unit_zero (S := S1x256) hz2, View.readCov_unit_zero (S := S256x1) _ hz2])

theorem run0B_acc (h0 : ¬t.val % 16 = 0) (h1 : ¬t.val % 16 = 15) (p : St0 F) :
    (⟨View.canon (run0B c t x0 x1 x2 x3 h0 h1 p).1, View.canon (run0B c t x0 x1 x2 x3 h0 h1 p).2.1, View.canon (run0B c t x0 x1 x2 x3 h0 h1 p).2.2.1, View.canon (run0B c t x0 x1 x2 x3 h0 h1 p).2.2.2.1, View.canon (run0B c t x0 x1 x2 x3 h0 h1 p).2.2.2.2.1⟩ : Acc0 F) = upd0 (grid0.coords t) x0 x1 x2 x3 ⟨p.s0, p.s1, p.s2, p.s3, p.s4⟩ := by
  refine Acc0.mk_congr ?_ ?_ ?_ ?_ ?_ <;>
    (unfold run0B kernelRun0_B
     dsimp only
     sl_unfold_words
     first | rw [View.canon_cons_unit_zero (S := S256x1) hz2] | rw [View.canon_unit_zero hz2]
     simp only [View.readAt_eq_ld, (hs0_0 t).read_unread, (hs0_1 t).read_unread, (hs0_2 t).read_unread, (hs0_3 t).read_unread, (Memref.isWhole_whole _).read_unread, View.ld_unit_zero (S := S256x1) hz2, View.ld_unit_zero (S := S256x512) hz2, View.ld_unit_zero (S := S1x256) hz2, View.readCov_unit_zero (S := S256x1) _ hz2])

theorem run0C_acc (h0 : ¬t.val % 16 = 0) (h1 : t.val % 16 = 15) (p : St0 F) :
    (⟨View.canon (run0C c t x0 x1 x2 x3 h0 h1 p).2.2.2.2.2.1, View.canon (run0C c t x0 x1 x2 x3 h0 h1 p).2.2.2.2.2.2.1, View.canon (run0C c t x0 x1 x2 x3 h0 h1 p).2.2.2.2.2.2.2.1, View.canon (run0C c t x0 x1 x2 x3 h0 h1 p).2.2.2.2.2.2.2.2.1, View.canon (run0C c t x0 x1 x2 x3 h0 h1 p).2.2.2.2.2.2.2.2.2.1⟩ : Acc0 F) = upd0 (grid0.coords t) x0 x1 x2 x3 ⟨p.s0, p.s1, p.s2, p.s3, p.s4⟩ := by
  refine Acc0.mk_congr ?_ ?_ ?_ ?_ ?_ <;>
    (unfold run0C kernelRun0_C
     dsimp only
     sl_unfold_words
     first | rw [View.canon_cons_unit_zero (S := S256x1) hz2] | rw [View.canon_unit_zero hz2]
     simp only [View.readAt_eq_ld, (hs0_0 t).read_unread, (hs0_1 t).read_unread, (hs0_2 t).read_unread, (hs0_3 t).read_unread, (Memref.isWhole_whole _).read_unread, View.ld_unit_zero (S := S256x1) hz2, View.ld_unit_zero (S := S256x512) hz2, View.ld_unit_zero (S := S1x256) hz2, View.readCov_unit_zero (S := S256x1) _ hz2])

/-- At the last column block each output block is the accumulator just stored. -/
theorem run0C_out (h0 : ¬t.val % 16 = 0) (h1 : t.val % 16 = 15) (p : St0 F) :
    (⟨View.canon (run0C c t x0 x1 x2 x3 h0 h1 p).1, View.canon (run0C c t x0 x1 x2 x3 h0 h1 p).2.1, View.canon (run0C c t x0 x1 x2 x3 h0 h1 p).2.2.1, View.canon (run0C c t x0 x1 x2 x3 h0 h1 p).2.2.2.1, View.canon (run0C c t x0 x1 x2 x3 h0 h1 p).2.2.2.2.1⟩ : Acc0 F) = upd0 (grid0.coords t) x0 x1 x2 x3 ⟨p.s0, p.s1, p.s2, p.s3, p.s4⟩ := by
  refine Acc0.mk_congr ?_ ?_ ?_ ?_ ?_ <;>
    (unfold run0C kernelRun0_C
     dsimp only
     sl_unfold_words
     first | rw [View.canon_cons_unit_zero (S := S256x1) hz2] | rw [View.canon_unit_zero hz2]
     simp only [View.readAt_eq_ld, (hs0_0 t).read_unread, (hs0_1 t).read_unread, (hs0_2 t).read_unread, (hs0_3 t).read_unread, (Memref.isWhole_whole _).read_unread, View.ld_unit_zero (S := S256x1) hz2, View.ld_unit_zero (S := S256x512) hz2, View.ld_unit_zero (S := S1x256) hz2, View.readCov_unit_zero (S := S256x1) _ hz2])

end Pieces

section Value0
open Idealize.ShloMosaic.ValueIdx
variable (V : (c : Dev nD) → (b : Ref sig .tc) → Buf (Elt F) ((c : Thread nD τ).loc b))

theorem N0_256 : cfg0.N = 256 := N_0

theorem idx0_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = t.val / 16 ∧ win0_5.index t (1 : Fin 2) = 0
    ∧ win0_6.index t (0 : Fin 2) = t.val / 16 ∧ win0_6.index t (1 : Fin 2) = 0
    ∧ win0_7.index t (0 : Fin 2) = t.val / 16 ∧ win0_7.index t (1 : Fin 2) = 0
    ∧ win0_8.index t (0 : Fin 2) = t.val / 16 ∧ win0_8.index t (1 : Fin 2) = 0 :=
  (by decide +kernel : ∀ t : Fin grid0.N, _)

theorem iblk0_0_eq (c : Dev nD) (t : Fin cfg0.N) :
    (iblk0 V c 0 t : Vec F S256x512 .f32) = rowsX (V c main_arg0) (t.val / 16) (div16_lt (lt_of_lt_of_eq t.isLt N0_256)) := by
  obtain ⟨e0, e1, -⟩ := idx0_facts t
  funext j
  unfold iblk0 rowsX
  rw [View.read_apply]
  show V c main_arg0 _ = V c main_arg0 _
  congr 1
  funext a
  apply Fin.ext
  match a with
  | ⟨0, _⟩ => show win0_0.index t (0 : Fin 2) * 256 + 1 * (j 0).val = 256 * (t.val / 16) + (j 0).val; rw [e0]; omega
  | ⟨1, _⟩ => show win0_0.index t (1 : Fin 2) * 512 + 1 * (j 1).val = (j 1).val; rw [e1]; omega

theorem iblk0_1_eq (c : Dev nD) (t : Fin cfg0.N) :
    (iblk0 V c 1 t : Vec F S256x512 .f32) = rowsX (V c main_arg0) (t.val % 16) (mod16_lt t.val) := by
  obtain ⟨-, -, e0, e1, -⟩ := idx0_facts t
  funext j
  unfold iblk0 rowsX
  rw [View.read_apply]
  show V c main_arg0 _ = V c main_arg0 _
  congr 1
  funext a
  apply Fin.ext
  match a with
  | ⟨0, _⟩ => show win0_1.index t (0 : Fin 2) * 256 + 1 * (j 0).val = 256 * (t.val % 16) + (j 0).val; rw [e0]; omega
  | ⟨1, _⟩ => show win0_1.index t (1 : Fin 2) * 512 + 1 * (j 1).val = (j 1).val; rw [e1]; omega

theorem iblk0_2_eq (c : Dev nD) (t : Fin cfg0.N) :
    (iblk0 V c 2 t : Vec F S256x1 .i32) = rowsC (V c main_v0) (t.val / 16) (div16_lt (lt_of_lt_of_eq t.isLt N0_256)) := by
  obtain ⟨-, -, -, -, e0, e1, -⟩ := idx0_facts t
  funext j
  unfold iblk0 rowsC
  rw [View.read_apply]
  show V c main_v0 _ = V c main_v0 _
  congr 1
  funext a
  apply Fin.ext
  match a with
  | ⟨0, _⟩ => show win0_2.index t (0 : Fin 2) * 256 + 1 * (j 0).val = 256 * (t.val / 16) + (j 0).val; rw [e0]; omega
  | ⟨1, _⟩ => show win0_2.index t (1 : Fin 2) * 1 + 1 * (j 1).val = (j 1).val; rw [e1]; omega

theorem iblk0_3_eq (c : Dev nD) (t : Fin cfg0.N) :
    (iblk0 V c 3 t : Vec F S1x256 .i32) = colsR (V c main_v1) (t.val % 16) (mod16_lt t.val) := by
  obtain ⟨-, -, -, -, -, -, e0, e1, -⟩ := idx0_facts t
  funext j
  unfold iblk0 colsR
  rw [View.read_apply]
  show V c main_v1 _ = V c main_v1 _
  congr 1
  funext a
  apply Fin.ext
  match a with
  | ⟨0, _⟩ => show win0_3.index t (0 : Fin 2) * 1 + 1 * (j 0).val = (j 0).val; rw [e0]; omega
  | ⟨1, _⟩ => show win0_3.index t (1 : Fin 2) * 256 + 1 * (j 1).val = 256 * (t.val % 16) + (j 1).val; rw [e1]; omega

theorem upd0_congr {i : grid0.Coords} {x0 x0' x1 x1' : Vec F S256x512 .f32} {x2 x2' : Vec F S256x1 .i32} {x3 x3' : Vec F S1x256 .i32}
    (h0 : x0 = x0') (h1 : x1 = x1') (h2 : x2 = x2') (h3 : x3 = x3') (p : Acc0 F) :
    upd0 i x0 x1 x2 x3 p = upd0 i x0' x1' x2' x3' p := by
  subst h0 h1 h2 h3; rfl

theorem upd0_blocks (c : Dev nD) (t : Fin cfg0.N) (p : Acc0 F) :
    upd0 (grid0.coords t) (iblk0 V c 0 t) (iblk0 V c 1 t) (iblk0 V c 2 t) (iblk0 V c 3 t) p
      = step0 (V c main_arg0) (V c main_v0) (V c main_v1) t.val t.isLt p :=
  upd0_congr (iblk0_0_eq V c t) (iblk0_1_eq V c t) (iblk0_2_eq V c t) (iblk0_3_eq V c t) p

/-- The accumulators after a point are one plain step: from the reset values at a first column block, else from what the point before left. -/
theorem accOf_outsAt0_A (c : Dev nD) (t : Fin cfg0.N) (h0 : t.val % 16 = 0) :
    accOf (outsAt0 V c t.val t.isLt) = step0 (V c main_arg0) (V c main_v0) (V c main_v1) t.val t.isLt init0 := by
  rw [outsAt0_A V c t h0 (by omega)]
  unfold accOf stA0; dsimp only
  exact (run0A_acc c t (iblk0 V c 0 t) (iblk0 V c 1 t) (iblk0 V c 2 t) (iblk0 V c 3 t) h0 _).trans (upd0_blocks V c t init0)

theorem accOf_outsAt0_B (c : Dev nD) (t : Fin cfg0.N) (h0 : ¬t.val % 16 = 0) (h1 : ¬t.val % 16 = 15) :
    accOf (outsAt0 V c t.val t.isLt) = step0 (V c main_arg0) (V c main_v0) (V c main_v1) t.val t.isLt (accOf (prev0 V c t)) := by
  rw [outsAt0_B V c t h0 h1]
  unfold accOf stB0; dsimp only
  exact (run0B_acc c t (iblk0 V c 0 t) (iblk0 V c 1 t) (iblk0 V c 2 t) (iblk0 V c 3 t) h0 h1 (prev0 V c t)).trans (upd0_blocks V c t (accOf (prev0 V c t)))

theorem accOf_outsAt0_C (c : Dev nD) (t : Fin cfg0.N) (h0 : ¬t.val % 16 = 0) (h1 : t.val % 16 = 15) :
    accOf (outsAt0 V c t.val t.isLt) = step0 (V c main_arg0) (V c main_v0) (V c main_v1) t.val t.isLt (accOf (prev0 V c t)) := by
  rw [outsAt0_C V c t h0 h1]
  unfold accOf stC0; dsimp only
  exact (run0C_acc c t (iblk0 V c 0 t) (iblk0 V c 1 t) (iblk0 V c 2 t) (iblk0 V c 3 t) h0 h1 (prev0 V c t)).trans (upd0_blocks V c t (accOf (prev0 V c t)))

theorem outOf_last (c : Dev nD) (t : Fin cfg0.N) (h1 : t.val % 16 = 15) :
    outOf (outsAt0 V c t.val t.isLt) = accOf (outsAt0 V c t.val t.isLt) := by
  have h0 : ¬t.val % 16 = 0 := by omega
  rw [outsAt0_C V c t h0 h1]
  unfold outOf accOf stC0; dsimp only
  exact (run0C_out c t (iblk0 V c 0 t) (iblk0 V c 1 t) (iblk0 V c 2 t) (iblk0 V c 3 t) h0 h1 (prev0 V c t)).trans (run0C_acc c t (iblk0 V c 0 t) (iblk0 V c 1 t) (iblk0 V c 2 t) (iblk0 V c 3 t) h0 h1 (prev0 V c t)).symm

theorem accOf_outsAt0 (c : Dev nD) : ∀ (n : ℕ) (hn : n < cfg0.N),
    accOf (outsAt0 V c n hn) = accAt0 (V c main_arg0) (V c main_v0) (V c main_v1) n hn
  | 0, hn => accOf_outsAt0_A V c ⟨0, hn⟩ rfl
  | n + 1, hn => by
    have ih := accOf_outsAt0 c n (Nat.lt_of_succ_lt hn)
    show _ = (if (n + 1) % 16 = 0 then _ else _)
    by_cases h0 : (n + 1) % 16 = 0
    · rw [if_pos h0]
      exact accOf_outsAt0_A V c ⟨n + 1, hn⟩ h0
    · rw [if_neg h0]
      by_cases h1 : (n + 1) % 16 = 15
      · exact (accOf_outsAt0_C V c ⟨n + 1, hn⟩ h0 h1).trans (congrArg (step0 (V c main_arg0) (V c main_v0) (V c main_v1) (n + 1) hn) ih)
      · exact (accOf_outsAt0_B V c ⟨n + 1, hn⟩ h0 h1).trans (congrArg (step0 (V c main_arg0) (V c main_v0) (V c main_v1) (n + 1) hn) ih)

theorem accAt0_congr (x : Vec F S4096x512 .f32) (tc : Vec F S4096x1 .i32) (tr : Vec F S1x4096 .i32) {n n' : ℕ} (h : n = n')
    (hn : n < grid0.N) (hn' : n' < grid0.N) : accAt0 x tc tr n hn = accAt0 x tc tr n' hn' := by
  subst h; rfl

theorem out0_at (x : Vec F S4096x512 .f32) (tc : Vec F S4096x1 .i32) (tr : Vec F S1x4096 .i32) (sel : Acc0 F → Vec F S256x1 .f32)
    (n : ℕ) (hn : n < grid0.N) (h15 : n % 16 = 15) (y : S4096x1.Idx) (j : S256x1.Idx)
    (hy : (y 0).val = n / 16 * 256 + 1 * (j 0).val) :
    out0 x tc tr sel y = sel (accAt0 x tc tr n hn) j := by
  have hj0 := idx2_lt0 j
  have hj1 := idx2_lt1 j
  have hq : 16 * ((y 0).val / 256) + 15 = n := by omega
  have hidx : ix2 (⟨(y 0).val % 256, Nat.mod_lt _ (by decide)⟩ : Fin 256) (⟨0, by decide⟩ : Fin 1) = j := by
    funext a; apply Fin.ext
    match a with
    | ⟨0, _⟩ => show (y 0).val % 256 = (j 0).val; omega
    | ⟨1, _⟩ => show 0 = (j 1).val; omega
  unfold out0
  exact congr (congrArg sel (accAt0_congr x tc tr hq _ hn)) hidx

theorem flushed0_4_eq (c : Dev nD) (t : Fin cfg0.N) (hf : (cfg0.win 4).flush t = true) :
    (dat0 V c).flushed 4 t = ((cfg0.win 4).blk t).view.read (Elt F)
      (out0 (V c main_arg0) (V c main_v0) (V c main_v1) (fun a => a.a0) : Vec F S4096x1 .f32) := by
  have h1 : t.val % 16 = 15 := (flush0_4 t).mp hf
  obtain ⟨-, -, -, -, -, -, -, -, e0, e1, -⟩ := idx0_facts t
  have hs : (outsAt0 V c t.val t.isLt).o4 = (accAt0 (V c main_arg0) (V c main_v0) (V c main_v1) t.val t.isLt).a0 :=
    (congrArg Acc0.a0 (outOf_last V c t h1)).trans (congrArg Acc0.a0 (accOf_outsAt0 V c t.val t.isLt))
  show (cfg0.win 4).cut (grid0.coords t) ((dat0 V c).after 4 t) = _
  rw [after0_4, hs]
  funext j
  rw [View.read_apply]
  exact (out0_at (V c main_arg0) (V c main_v0) (V c main_v1) (fun a => a.a0) t.val t.isLt h1 (((cfg0.win 4).blk t).view.emb j) j
    (by show win0_4.index t (0 : Fin 2) * 256 + 1 * (j 0).val = _; rw [e0])).symm

theorem cover0_4 (i : S4096x1.Idx) : ∃ t : Fin cfg0.N, (cfg0.win 4).flush t = true ∧ i ∈ ((cfg0.win 4).blk t).view.set := by
  have hi0 := idx2_lt0 i
  have hi1 := idx2_lt1 i
  have ht : 16 * ((i 0).val / 256) + 15 < cfg0.N := lt_of_lt_of_eq (last_lt hi0) N0_256.symm
  obtain ⟨-, -, -, -, -, -, -, -, e0, e1, -⟩ := idx0_facts ⟨16 * ((i 0).val / 256) + 15, ht⟩
  have e0' : win0_4.index ⟨16 * ((i 0).val / 256) + 15, ht⟩ (0 : Fin 2) = (16 * ((i 0).val / 256) + 15) / 16 := e0
  refine ⟨⟨16 * ((i 0).val / 256) + 15, ht⟩, (flush0_4 _).mpr (by dsimp only; omega), ?_⟩
  show i ∈ ((View.whole main_v2_0).slice (win0_4.rect ⟨16 * ((i 0).val / 256) + 15, ht⟩)).set
  rw [View.set_slice_whole, Rect.mem_set_unit]
  intro a
  match a with
  | ⟨0, _⟩ =>
    show win0_4.index ⟨16 * ((i 0).val / 256) + 15, ht⟩ (0 : Fin 2) * 256 ≤ (i 0).val
      ∧ (i 0).val < win0_4.index ⟨16 * ((i 0).val / 256) + 15, ht⟩ (0 : Fin 2) * 256 + 256
    rw [e0']; omega
  | ⟨1, _⟩ =>
    show win0_4.index ⟨16 * ((i 0).val / 256) + 15, ht⟩ (1 : Fin 2) * 1 ≤ (i 1).val
      ∧ (i 1).val < win0_4.index ⟨16 * ((i 0).val / 256) + 15, ht⟩ (1 : Fin 2) * 1 + 1
    rw [e1]; omega

theorem flushed0_5_eq (c : Dev nD) (t : Fin cfg0.N) (hf : (cfg0.win 5).flush t = true) :
    (dat0 V c).flushed 5 t = ((cfg0.win 5).blk t).view.read (Elt F)
      (out0 (V c main_arg0) (V c main_v0) (V c main_v1) (fun a => a.a1) : Vec F S4096x1 .f32) := by
  have h1 : t.val % 16 = 15 := (flush0_5 t).mp hf
  obtain ⟨-, -, -, -, -, -, -, -, -, -, e0, e1, -⟩ := idx0_facts t
  have hs : (outsAt0 V c t.val t.isLt).o5 = (accAt0 (V c main_arg0) (V c main_v0) (V c main_v1) t.val t.isLt).a1 :=
    (congrArg Acc0.a1 (outOf_last V c t h1)).trans (congrArg Acc0.a1 (accOf_outsAt0 V c t.val t.isLt))
  show (cfg0.win 5).cut (grid0.coords t) ((dat0 V c).after 5 t) = _
  rw [after0_5, hs]
  funext j
  rw [View.read_apply]
  exact (out0_at (V c main_arg0) (V c main_v0) (V c main_v1) (fun a => a.a1) t.val t.isLt h1 (((cfg0.win 5).blk t).view.emb j) j
    (by show win0_5.index t (0 : Fin 2) * 256 + 1 * (j 0).val = _; rw [e0])).symm

theorem cover0_5 (i : S4096x1.Idx) : ∃ t : Fin cfg0.N, (cfg0.win 5).flush t = true ∧ i ∈ ((cfg0.win 5).blk t).view.set := by
  have hi0 := idx2_lt0 i
  have hi1 := idx2_lt1 i
  have ht : 16 * ((i 0).val / 256) + 15 < cfg0.N := lt_of_lt_of_eq (last_lt hi0) N0_256.symm
  obtain ⟨-, -, -, -, -, -, -, -, -, -, e0, e1, -⟩ := idx0_facts ⟨16 * ((i 0).val / 256) + 15, ht⟩
  have e0' : win0_5.index ⟨16 * ((i 0).val / 256) + 15, ht⟩ (0 : Fin 2) = (16 * ((i 0).val / 256) + 15) / 16 := e0
  refine ⟨⟨16 * ((i 0).val / 256) + 15, ht⟩, (flush0_5 _).mpr (by dsimp only; omega), ?_⟩
  show i ∈ ((View.whole main_v2_1).slice (win0_5.rect ⟨16 * ((i 0).val / 256) + 15, ht⟩)).set
  rw [View.set_slice_whole, Rect.mem_set_unit]
  intro a
  match a with
  | ⟨0, _⟩ =>
    show win0_5.index ⟨16 * ((i 0).val / 256) + 15, ht⟩ (0 : Fin 2) * 256 ≤ (i 0).val
      ∧ (i 0).val < win0_5.index ⟨16 * ((i 0).val / 256) + 15, ht⟩ (0 : Fin 2) * 256 + 256
    rw [e0']; omega
  | ⟨1, _⟩ =>
    show win0_5.index ⟨16 * ((i 0).val / 256) + 15, ht⟩ (1 : Fin 2) * 1 ≤ (i 1).val
      ∧ (i 1).val < win0_5.index ⟨16 * ((i 0).val / 256) + 15, ht⟩ (1 : Fin 2) * 1 + 1
    rw [e1]; omega

theorem flushed0_6_eq (c : Dev nD) (t : Fin cfg0.N) (hf : (cfg0.win 6).flush t = true) :
    (dat0 V c).flushed 6 t = ((cfg0.win 6).blk t).view.read (Elt F)
      (out0 (V c main_arg0) (V c main_v0) (V c main_v1) (fun a => a.a2) : Vec F S4096x1 .f32) := by
  have h1 : t.val % 16 = 15 := (flush0_6 t).mp hf
  obtain ⟨-, -, -, -, -, -, -, -, -, -, -, -, e0, e1, -⟩ := idx0_facts t
  have hs : (outsAt0 V c t.val t.isLt).o6 = (accAt0 (V c main_arg0) (V c main_v0) (V c main_v1) t.val t.isLt).a2 :=
    (congrArg Acc0.a2 (outOf_last V c t h1)).trans (congrArg Acc0.a2 (accOf_outsAt0 V c t.val t.isLt))
  show (cfg0.win 6).cut (grid0.coords t) ((dat0 V c).after 6 t) = _
  rw [after0_6, hs]
  funext j
  rw [View.read_apply]
  exact (out0_at (V c main_arg0) (V c main_v0) (V c main_v1) (fun a => a.a2) t.val t.isLt h1 (((cfg0.win 6).blk t).view.emb j) j
    (by show win0_6.index t (0 : Fin 2) * 256 + 1 * (j 0).val = _; rw [e0])).symm

theorem cover0_6 (i : S4096x1.Idx) : ∃ t : Fin cfg0.N, (cfg0.win 6).flush t = true ∧ i ∈ ((cfg0.win 6).blk t).view.set := by
  have hi0 := idx2_lt0 i
  have hi1 := idx2_lt1 i
  have ht : 16 * ((i 0).val / 256) + 15 < cfg0.N := lt_of_lt_of_eq (last_lt hi0) N0_256.symm
  obtain ⟨-, -, -, -, -, -, -, -, -, -, -, -, e0, e1, -⟩ := idx0_facts ⟨16 * ((i 0).val / 256) + 15, ht⟩
  have e0' : win0_6.index ⟨16 * ((i 0).val / 256) + 15, ht⟩ (0 : Fin 2) = (16 * ((i 0).val / 256) + 15) / 16 := e0
  refine ⟨⟨16 * ((i 0).val / 256) + 15, ht⟩, (flush0_6 _).mpr (by dsimp only; omega), ?_⟩
  show i ∈ ((View.whole main_v2_2).slice (win0_6.rect ⟨16 * ((i 0).val / 256) + 15, ht⟩)).set
  rw [View.set_slice_whole, Rect.mem_set_unit]
  intro a
  match a with
  | ⟨0, _⟩ =>
    show win0_6.index ⟨16 * ((i 0).val / 256) + 15, ht⟩ (0 : Fin 2) * 256 ≤ (i 0).val
      ∧ (i 0).val < win0_6.index ⟨16 * ((i 0).val / 256) + 15, ht⟩ (0 : Fin 2) * 256 + 256
    rw [e0']; omega
  | ⟨1, _⟩ =>
    show win0_6.index ⟨16 * ((i 0).val / 256) + 15, ht⟩ (1 : Fin 2) * 1 ≤ (i 1).val
      ∧ (i 1).val < win0_6.index ⟨16 * ((i 0).val / 256) + 15, ht⟩ (1 : Fin 2) * 1 + 1
    rw [e1]; omega

theorem flushed0_7_eq (c : Dev nD) (t : Fin cfg0.N) (hf : (cfg0.win 7).flush t = true) :
    (dat0 V c).flushed 7 t = ((cfg0.win 7).blk t).view.read (Elt F)
      (out0 (V c main_arg0) (V c main_v0) (V c main_v1) (fun a => a.a3) : Vec F S4096x1 .f32) := by
  have h1 : t.val % 16 = 15 := (flush0_7 t).mp hf
  obtain ⟨-, -, -, -, -, -, -, -, -, -, -, -, -, -, e0, e1, -⟩ := idx0_facts t
  have hs : (outsAt0 V c t.val t.isLt).o7 = (accAt0 (V c main_arg0) (V c main_v0) (V c main_v1) t.val t.isLt).a3 :=
    (congrArg Acc0.a3 (outOf_last V c t h1)).trans (congrArg Acc0.a3 (accOf_outsAt0 V c t.val t.isLt))
  show (cfg0.win 7).cut (grid0.coords t) ((dat0 V c).after 7 t) = _
  rw [after0_7, hs]
  funext j
  rw [View.read_apply]
  exact (out0_at (V c main_arg0) (V c main_v0) (V c main_v1) (fun a => a.a3) t.val t.isLt h1 (((cfg0.win 7).blk t).view.emb j) j
    (by show win0_7.index t (0 : Fin 2) * 256 + 1 * (j 0).val = _; rw [e0])).symm

theorem cover0_7 (i : S4096x1.Idx) : ∃ t : Fin cfg0.N, (cfg0.win 7).flush t = true ∧ i ∈ ((cfg0.win 7).blk t).view.set := by
  have hi0 := idx2_lt0 i
  have hi1 := idx2_lt1 i
  have ht : 16 * ((i 0).val / 256) + 15 < cfg0.N := lt_of_lt_of_eq (last_lt hi0) N0_256.symm
  obtain ⟨-, -, -, -, -, -, -, -, -, -, -, -, -, -, e0, e1, -⟩ := idx0_facts ⟨16 * ((i 0).val / 256) + 15, ht⟩
  have e0' : win0_7.index ⟨16 * ((i 0).val / 256) + 15, ht⟩ (0 : Fin 2) = (16 * ((i 0).val / 256) + 15) / 16 := e0
  refine ⟨⟨16 * ((i 0).val / 256) + 15, ht⟩, (flush0_7 _).mpr (by dsimp only; omega), ?_⟩
  show i ∈ ((View.whole main_v2_3).slice (win0_7.rect ⟨16 * ((i 0).val / 256) + 15, ht⟩)).set
  rw [View.set_slice_whole, Rect.mem_set_unit]
  intro a
  match a with
  | ⟨0, _⟩ =>
    show win0_7.index ⟨16 * ((i 0).val / 256) + 15, ht⟩ (0 : Fin 2) * 256 ≤ (i 0).val
      ∧ (i 0).val < win0_7.index ⟨16 * ((i 0).val / 256) + 15, ht⟩ (0 : Fin 2) * 256 + 256
    rw [e0']; omega
  | ⟨1, _⟩ =>
    show win0_7.index ⟨16 * ((i 0).val / 256) + 15, ht⟩ (1 : Fin 2) * 1 ≤ (i 1).val
      ∧ (i 1).val < win0_7.index ⟨16 * ((i 0).val / 256) + 15, ht⟩ (1 : Fin 2) * 1 + 1
    rw [e1]; omega

theorem flushed0_8_eq (c : Dev nD) (t : Fin cfg0.N) (hf : (cfg0.win 8).flush t = true) :
    (dat0 V c).flushed 8 t = ((cfg0.win 8).blk t).view.read (Elt F)
      (out0 (V c main_arg0) (V c main_v0) (V c main_v1) (fun a => a.a4) : Vec F S4096x1 .f32) := by
  have h1 : t.val % 16 = 15 := (flush0_8 t).mp hf
  obtain ⟨-, -, -, -, -, -, -, -, -, -, -, -, -, -, -, -, e0, e1⟩ := idx0_facts t
  have hs : (outsAt0 V c t.val t.isLt).o8 = (accAt0 (V c main_arg0) (V c main_v0) (V c main_v1) t.val t.isLt).a4 :=
    (congrArg Acc0.a4 (outOf_last V c t h1)).trans (congrArg Acc0.a4 (accOf_outsAt0 V c t.val t.isLt))
  show (cfg0.win 8).cut (grid0.coords t) ((dat0 V c).after 8 t) = _
  rw [after0_8, hs]
  funext j
  rw [View.read_apply]
  exact (out0_at (V c main_arg0) (V c main_v0) (V c main_v1) (fun a => a.a4) t.val t.isLt h1 (((cfg0.win 8).blk t).view.emb j) j
    (by show win0_8.index t (0 : Fin 2) * 256 + 1 * (j 0).val = _; rw [e0])).symm

theorem cover0_8 (i : S4096x1.Idx) : ∃ t : Fin cfg0.N, (cfg0.win 8).flush t = true ∧ i ∈ ((cfg0.win 8).blk t).view.set := by
  have hi0 := idx2_lt0 i
  have hi1 := idx2_lt1 i
  have ht : 16 * ((i 0).val / 256) + 15 < cfg0.N := lt_of_lt_of_eq (last_lt hi0) N0_256.symm
  obtain ⟨-, -, -, -, -, -, -, -, -, -, -, -, -, -, -, -, e0, e1⟩ := idx0_facts ⟨16 * ((i 0).val / 256) + 15, ht⟩
  have e0' : win0_8.index ⟨16 * ((i 0).val / 256) + 15, ht⟩ (0 : Fin 2) = (16 * ((i 0).val / 256) + 15) / 16 := e0
  refine ⟨⟨16 * ((i 0).val / 256) + 15, ht⟩, (flush0_8 _).mpr (by dsimp only; omega), ?_⟩
  show i ∈ ((View.whole main_v2_4).slice (win0_8.rect ⟨16 * ((i 0).val / 256) + 15, ht⟩)).set
  rw [View.set_slice_whole, Rect.mem_set_unit]
  intro a
  match a with
  | ⟨0, _⟩ =>
    show win0_8.index ⟨16 * ((i 0).val / 256) + 15, ht⟩ (0 : Fin 2) * 256 ≤ (i 0).val
      ∧ (i 0).val < win0_8.index ⟨16 * ((i 0).val / 256) + 15, ht⟩ (0 : Fin 2) * 256 + 256
    rw [e0']; omega
  | ⟨1, _⟩ =>
    show win0_8.index ⟨16 * ((i 0).val / 256) + 15, ht⟩ (1 : Fin 2) * 1 ≤ (i 1).val
      ∧ (i 1).val < win0_8.index ⟨16 * ((i 0).val / 256) + 15, ht⟩ (1 : Fin 2) * 1 + 1
    rw [e1]; omega

end Value0

section Value
variable (V : (c : Dev nD) → (b : Ref sig .tc) → Buf (Elt F) ((c : Thread nD τ).loc b))

theorem final0_4 (c : Dev nD) :
    (dat0 V c).arrAt 4 cfg0.N = (out0 (V c main_arg0) (V c main_v0) (V c main_v1) (fun a => a.a0) : Vec F S4096x1 .f32) := by
  exact (dat0 V c).arrAt_eq_of_cover 4 _ (flushed0_4_eq V c) cover0_4

theorem final0_5 (c : Dev nD) :
    (dat0 V c).arrAt 5 cfg0.N = (out0 (V c main_arg0) (V c main_v0) (V c main_v1) (fun a => a.a1) : Vec F S4096x1 .f32) := by
  exact (dat0 V c).arrAt_eq_of_cover 5 _ (flushed0_5_eq V c) cover0_5

theorem final0_6 (c : Dev nD) :
    (dat0 V c).arrAt 6 cfg0.N = (out0 (V c main_arg0) (V c main_v0) (V c main_v1) (fun a => a.a2) : Vec F S4096x1 .f32) := by
  exact (dat0 V c).arrAt_eq_of_cover 6 _ (flushed0_6_eq V c) cover0_6

theorem final0_7 (c : Dev nD) :
    (dat0 V c).arrAt 7 cfg0.N = (out0 (V c main_arg0) (V c main_v0) (V c main_v1) (fun a => a.a3) : Vec F S4096x1 .f32) := by
  exact (dat0 V c).arrAt_eq_of_cover 7 _ (flushed0_7_eq V c) cover0_7

theorem final0_8 (c : Dev nD) :
    (dat0 V c).arrAt 8 cfg0.N = (out0 (V c main_arg0) (V c main_v0) (V c main_v1) (fun a => a.a4) : Vec F S4096x1 .f32) := by
  exact (dat0 V c).arrAt_eq_of_cover 8 _ (flushed0_8_eq V c) cover0_8

end Value

end Cert.KernelIdeal.Hand

end
-- ==== Proof.KI.Value1.lean ====
import proofs.«105460_j37082747634119_1_alg».proof.Proof.KI.Region1
import proofs.«105460_j37082747634119_1_alg».proof.Proof.KI.Fold
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeroOff1 : (![0, 0] : Fin 2 → Nat) = fun _ => 0 := funext fun a => by fin_cases a <;> rfl

def upd1 (x0 x1 : Vec F S256x512 .f32) (x2 : Vec F S256x1 .i32) (x3 : Vec F S1x256 .i32) (x4 : Vec F S256x1 .f32) (p : Acc1 F) : Acc1 F :=
  ⟨k1_pay2 (k1_pay7 x2 x3) (k1_pay8 x0 x1 x4) p.a0, k1_pay3 (k1_pay6 x0 x1) (k1_pay7 x2 x3) (k1_pay8 x0 x1 x4) p.a1⟩

section Pieces
variable (c : Dev nD) (t : Fin cfg1.N) (x0 x1 : Vec F S256x512 .f32) (x2 : Vec F S256x1 .i32) (x3 : Vec F S1x256 .i32) (x4 : Vec F S256x1 .f32)

/-- Every store writes a whole [256, 1] buffer, so what a buffer holds after a case is the payload of the last store into it. -/
theorem run1A_acc (h0 : t.val % 16 = 0) (h1 : ¬t.val % 16 = 15) : View.canon (run1A c t x0 x1 x2 x3 x4 h0 h1).1 = (upd1 x0 x1 x2 x3 x4 init1).a0 ∧ View.canon (run1A c t x0 x1 x2 x3 x4 h0 h1).2.1 = (upd1 x0 x1 x2 x3 x4 init1).a1 := by
  refine ⟨?_, ?_⟩ <;>
    (unfold run1A kernelRun1_A upd1
     dsimp only [init1]
     sl_unfold_words
     first | rw [View.canon_cons_unit_zero (S := S256x1) zeroOff1] | rw [View.canon_unit_zero zeroOff1]
     simp only [View.readAt_eq_ld, (hs1_0 t).read_unread, (hs1_1 t).read_unread, (hs1_2 t).read_unread, (hs1_3 t).read_unread, (hs1_4 t).read_unread, (Memref.isWhole_whole _).read_unread, View.readCov_unit_zero (S := S256x1) _ zeroOff1, View.ld_unit_zero (S := S256x1) zeroOff1, View.ld_unit_zero (S := S256x512) zeroOff1, View.ld_unit_zero (S := S1x256) zeroOff1])

theorem run1B_acc (h0 : ¬t.val % 16 = 0) (h1 : ¬t.val % 16 = 15) (p : St1 F) : View.canon (run1B c t x0 x1 x2 x3 x4 h0 h1 p).1 = (upd1 x0 x1 x2 x3 x4 ⟨p.s0, p.s1⟩).a0 ∧ View.canon (run1B c t x0 x1 x2 x3 x4 h0 h1 p).2.1 = (upd1 x0 x1 x2 x3 x4 ⟨p.s0, p.s1⟩).a1 := by
  refine ⟨?_, ?_⟩ <;>
    (unfold run1B kernelRun1_B upd1
     dsimp only
     sl_unfold_words
     first | rw [View.canon_cons_unit_zero (S := S256x1) zeroOff1] | rw [View.canon_unit_zero zeroOff1]
     simp only [View.readAt_eq_ld, (hs1_0 t).read_unread, (hs1_1 t).read_unread, (hs1_2 t).read_unread, (hs1_3 t).read_unread, (hs1_4 t).read_unread, (Memref.isWhole_whole _).read_unread, View.readCov_unit_zero (S := S256x1) _ zeroOff1, View.ld_unit_zero (S := S256x1) zeroOff1, View.ld_unit_zero (S := S256x512) zeroOff1, View.ld_unit_zero (S := S1x256) zeroOff1])

theorem run1C_acc (h0 : ¬t.val % 16 = 0) (h1 : t.val % 16 = 15) (p : St1 F) : View.canon (run1C c t x0 x1 x2 x3 x4 h0 h1 p).2.2.1 = (upd1 x0 x1 x2 x3 x4 ⟨p.s0, p.s1⟩).a0 ∧ View.canon (run1C c t x0 x1 x2 x3 x4 h0 h1 p).2.2.2.1 = (upd1 x0 x1 x2 x3 x4 ⟨p.s0, p.s1⟩).a1 := by
  refine ⟨?_, ?_⟩ <;>
    (unfold run1C kernelRun1_C upd1
     dsimp only
     sl_unfold_words
     first | rw [View.canon_cons_unit_zero (S := S256x1) zeroOff1] | rw [View.canon_unit_zero zeroOff1]
     simp only [View.readAt_eq_ld, (hs1_0 t).read_unread, (hs1_1 t).read_unread, (hs1_2 t).read_unread, (hs1_3 t).read_unread, (hs1_4 t).read_unread, (Memref.isWhole_whole _).read_unread, View.readCov_unit_zero (S := S256x1) _ zeroOff1, View.ld_unit_zero (S := S256x1) zeroOff1, View.ld_unit_zero (S := S256x512) zeroOff1, View.ld_unit_zero (S := S1x256) zeroOff1])

theorem run1C_out (h0 : ¬t.val % 16 = 0) (h1 : t.val % 16 = 15) (p : St1 F) : View.canon (run1C c t x0 x1 x2 x3 x4 h0 h1 p).1 = (upd1 x0 x1 x2 x3 x4 ⟨p.s0, p.s1⟩).a0 ∧ View.canon (run1C c t x0 x1 x2 x3 x4 h0 h1 p).2.1 = (upd1 x0 x1 x2 x3 x4 ⟨p.s0, p.s1⟩).a1 := by
  refine ⟨?_, ?_⟩ <;>
    (unfold run1C kernelRun1_C upd1
     dsimp only
     sl_unfold_words
     first | rw [View.canon_cons_unit_zero (S := S256x1) zeroOff1] | rw [View.canon_unit_zero zeroOff1]
     simp only [View.readAt_eq_ld, (hs1_0 t).read_unread, (hs1_1 t).read_unread, (hs1_2 t).read_unread, (hs1_3 t).read_unread, (hs1_4 t).read_unread, (Memref.isWhole_whole _).read_unread, View.readCov_unit_zero (S := S256x1) _ zeroOff1, View.ld_unit_zero (S := S256x1) zeroOff1, View.ld_unit_zero (S := S256x512) zeroOff1, View.ld_unit_zero (S := S1x256) zeroOff1])

end Pieces

theorem idx1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = t.val / 16 ∧ win1_4.index t (1 : Fin 2) = 0
    ∧ win1_5.index t (0 : Fin 2) = t.val / 16 ∧ win1_5.index t (1 : Fin 2) = 0
    ∧ win1_6.index t (0 : Fin 2) = t.val / 16 ∧ win1_6.index t (1 : Fin 2) = 0 :=
  (by decide +kernel : ∀ t : Fin grid1.N, _)

section Blocks
variable (V : (c : Dev nD) → (b : Ref sig .tc) → Buf (Elt F) ((c : Thread nD τ).loc b))

abbrev xarr1 (c : Dev nD) : Vec F S4096x512 .f32 := V c main_arg0
abbrev tcarr1 (c : Dev nD) : Vec F S4096x1 .i32 := V c main_v0
abbrev trarr1 (c : Dev nD) : Vec F S1x4096 .i32 := V c main_v1
abbrev pmarr1 (c : Dev nD) : Vec F S4096x1 .f32 := V c main_v2_0

abbrev blk1_0 (c : Dev nD) (t : Fin cfg1.N) : Vec F S256x512 .f32 := iblk1 V c 0 t
abbrev blk1_1 (c : Dev nD) (t : Fin cfg1.N) : Vec F S256x512 .f32 := iblk1 V c 1 t
abbrev blk1_2 (c : Dev nD) (t : Fin cfg1.N) : Vec F S256x1 .i32 := iblk1 V c 2 t
abbrev blk1_3 (c : Dev nD) (t : Fin cfg1.N) : Vec F S1x256 .i32 := iblk1 V c 3 t
abbrev blk1_4 (c : Dev nD) (t : Fin cfg1.N) : Vec F S256x1 .f32 := iblk1 V c 4 t

theorem tlt1 (t : Fin cfg1.N) : t.val < 256 := lt_of_lt_of_eq t.isLt N_1

theorem blk1_0_eq (c : Dev nD) (t : Fin cfg1.N) : blk1_0 V c t = rowsX (xarr1 V c) (t.val / 16) (div16_lt (tlt1 t)) := by
  obtain ⟨e00, e01, -⟩ := idx1 t
  funext y
  unfold blk1_0 iblk1 rowsX
  rw [View.read_apply]
  show V c main_arg0 _ = V c main_arg0 _
  congr 1
  funext a; apply Fin.ext
  match a with
  | ⟨0, _⟩ => show win1_0.index t (0 : Fin 2) * 256 + 1 * (y 0).val = 256 * (t.val / 16) + (y 0).val; omega
  | ⟨1, _⟩ => show win1_0.index t (1 : Fin 2) * 512 + 1 * (y 1).val = (y 1).val; omega

theorem blk1_1_eq (c : Dev nD) (t : Fin cfg1.N) : blk1_1 V c t = rowsX (xarr1 V c) (t.val % 16) (mod16_lt t.val) := by
  obtain ⟨-, -, e10, e11, -⟩ := idx1 t
  funext y
  unfold blk1_1 iblk1 rowsX
  rw [View.read_apply]
  show V c main_arg0 _ = V c main_arg0 _
  congr 1
  funext a; apply Fin.ext
  match a with
  | ⟨0, _⟩ => show win1_1.index t (0 : Fin 2) * 256 + 1 * (y 0).val = 256 * (t.val % 16) + (y 0).val; omega
  | ⟨1, _⟩ => show win1_1.index t (1 : Fin 2) * 512 + 1 * (y 1).val = (y 1).val; omega

theorem blk1_2_eq (c : Dev nD) (t : Fin cfg1.N) : blk1_2 V c t = rowsC (tcarr1 V c) (t.val / 16) (div16_lt (tlt1 t)) := by
  obtain ⟨-, -, -, -, e20, e21, -⟩ := idx1 t
  funext y
  unfold blk1_2 iblk1 rowsC
  rw [View.read_apply]
  show V c main_v0 _ = V c main_v0 _
  congr 1
  funext a; apply Fin.ext
  match a with
  | ⟨0, _⟩ => show win1_2.index t (0 : Fin 2) * 256 + 1 * (y 0).val = 256 * (t.val / 16) + (y 0).val; omega
  | ⟨1, _⟩ => show win1_2.index t (1 : Fin 2) * 1 + 1 * (y 1).val = (y 1).val; omega

theorem blk1_3_eq (c : Dev nD) (t : Fin cfg1.N) : blk1_3 V c t = colsR (trarr1 V c) (t.val % 16) (mod16_lt t.val) := by
  obtain ⟨-, -, -, -, -, -, e30, e31, -⟩ := idx1 t
  funext y
  unfold blk1_3 iblk1 colsR
  rw [View.read_apply]
  show V c main_v1 _ = V c main_v1 _
  congr 1
  funext a; apply Fin.ext
  match a with
  | ⟨0, _⟩ => show win1_3.index t (0 : Fin 2) * 1 + 1 * (y 0).val = (y 0).val; omega
  | ⟨1, _⟩ => show win1_3.index t (1 : Fin 2) * 256 + 1 * (y 1).val = 256 * (t.val % 16) + (y 1).val; omega

theorem blk1_4_eq (c : Dev nD) (t : Fin cfg1.N) : blk1_4 V c t = rowsC (pmarr1 V c) (t.val / 16) (div16_lt (tlt1 t)) := by
  obtain ⟨-, -, -, -, -, -, -, -, e40, e41, -⟩ := idx1 t
  funext y
  unfold blk1_4 iblk1 rowsC
  rw [View.read_apply]
  show V c main_v2_0 _ = V c main_v2_0 _
  congr 1
  funext a; apply Fin.ext
  match a with
  | ⟨0, _⟩ => show win1_4.index t (0 : Fin 2) * 256 + 1 * (y 0).val = 256 * (t.val / 16) + (y 0).val; omega
  | ⟨1, _⟩ => show win1_4.index t (1 : Fin 2) * 1 + 1 * (y 1).val = (y 1).val; omega

end Blocks

section Acc
variable (x : Vec F S4096x512 .f32) (tc : Vec F S4096x1 .i32) (tr : Vec F S1x4096 .i32) (pm : Vec F S4096x1 .f32)

theorem accAt1_zero (hn : 0 < grid1.N) : accAt1 x tc tr pm 0 hn = step1 x tc tr pm 0 hn init1 := by rw [accAt1]
theorem accAt1_reset (n : ℕ) (hn : n + 1 < grid1.N) (h0 : (n + 1) % 16 = 0) :
    accAt1 x tc tr pm (n + 1) hn = step1 x tc tr pm (n + 1) hn init1 := by rw [accAt1, if_pos h0]
theorem accAt1_carry (n : ℕ) (hn : n + 1 < grid1.N) (h0 : ¬(n + 1) % 16 = 0) :
    accAt1 x tc tr pm (n + 1) hn = step1 x tc tr pm (n + 1) hn (accAt1 x tc tr pm n (Nat.lt_of_succ_lt hn)) := by rw [accAt1, if_neg h0]
theorem accAt1_congr {m n : ℕ} (e : m = n) (hm : m < grid1.N) (hn : n < grid1.N) : accAt1 x tc tr pm m hm = accAt1 x tc tr pm n hn := by
  subst e; rfl

theorem out1_apply (sel : Acc1 F → Vec F S256x1 .f32) (n : ℕ) (hn : n < grid1.N) (h15 : n % 16 = 15) (y : S4096x1.Idx) (j : S256x1.Idx)
    (hy : (y 0).val = 256 * (n / 16) + (j 0).val) : out1 x tc tr pm sel y = sel (accAt1 x tc tr pm n hn) j := by
  have hj0 := idx2_lt0 j
  have hj1 := idx2_lt1 j
  have e : 16 * ((y 0).val / 256) + 15 = n := by omega
  unfold out1
  rw [accAt1_congr x tc tr pm e _ hn]
  congr 1
  funext a
  match a with
  | ⟨0, _⟩ => exact Fin.ext (by show (y 0).val % 256 = (j 0).val; omega)
  | ⟨1, _⟩ => exact Fin.ext (by show 0 = (j 1).val; omega)

end Acc

section Value
variable (V : (c : Dev nD) → (b : Ref sig .tc) → Buf (Elt F) ((c : Thread nD τ).loc b))

theorem step1_blk (c : Dev nD) (n : ℕ) (hn : n < cfg1.N) (p : Acc1 F) :
    step1 (xarr1 V c) (tcarr1 V c) (trarr1 V c) (pmarr1 V c) n hn p
      = upd1 (blk1_0 V c ⟨n, hn⟩) (blk1_1 V c ⟨n, hn⟩) (blk1_2 V c ⟨n, hn⟩) (blk1_3 V c ⟨n, hn⟩) (blk1_4 V c ⟨n, hn⟩) p := by
  rw [blk1_0_eq V c ⟨n, hn⟩, blk1_1_eq V c ⟨n, hn⟩, blk1_2_eq V c ⟨n, hn⟩, blk1_3_eq V c ⟨n, hn⟩, blk1_4_eq V c ⟨n, hn⟩]
  rfl

theorem outsAt1_first (c : Dev nD) (t : Fin cfg1.N) (h0 : t.val % 16 = 0) (h1 : ¬t.val % 16 = 15) :
    (outsAt1 V c t.val t.isLt).s0 = (upd1 (blk1_0 V c t) (blk1_1 V c t) (blk1_2 V c t) (blk1_3 V c t) (blk1_4 V c t) init1).a0 ∧ (outsAt1 V c t.val t.isLt).s1 = (upd1 (blk1_0 V c t) (blk1_1 V c t) (blk1_2 V c t) (blk1_3 V c t) (blk1_4 V c t) init1).a1 := by
  rw [outsAt1_A V c t h0 h1]
  unfold stA1; dsimp only
  exact run1A_acc c t (blk1_0 V c t) (blk1_1 V c t) (blk1_2 V c t) (blk1_3 V c t) (blk1_4 V c t) h0 h1

theorem outsAt1_inner (c : Dev nD) (t : Fin cfg1.N) (h0 : ¬t.val % 16 = 0) (h1 : ¬t.val % 16 = 15) :
    (outsAt1 V c t.val t.isLt).s0 = (upd1 (blk1_0 V c t) (blk1_1 V c t) (blk1_2 V c t) (blk1_3 V c t) (blk1_4 V c t) ⟨(prev1 V c t).s0, (prev1 V c t).s1⟩).a0 ∧ (outsAt1 V c t.val t.isLt).s1 = (upd1 (blk1_0 V c t) (blk1_1 V c t) (blk1_2 V c t) (blk1_3 V c t) (blk1_4 V c t) ⟨(prev1 V c t).s0, (prev1 V c t).s1⟩).a1 := by
  rw [outsAt1_B V c t h0 h1]
  unfold stB1; dsimp only
  exact run1B_acc c t (blk1_0 V c t) (blk1_1 V c t) (blk1_2 V c t) (blk1_3 V c t) (blk1_4 V c t) h0 h1 (prev1 V c t)

theorem outsAt1_last (c : Dev nD) (t : Fin cfg1.N) (h0 : ¬t.val % 16 = 0) (h1 : t.val % 16 = 15) :
    ((outsAt1 V c t.val t.isLt).s0 = (upd1 (blk1_0 V c t) (blk1_1 V c t) (blk1_2 V c t) (blk1_3 V c t) (blk1_4 V c t) ⟨(prev1 V c t).s0, (prev1 V c t).s1⟩).a0 ∧ (outsAt1 V c t.val t.isLt).s1 = (upd1 (blk1_0 V c t) (blk1_1 V c t) (blk1_2 V c t) (blk1_3 V c t) (blk1_4 V c t) ⟨(prev1 V c t).s0, (prev1 V c t).s1⟩).a1)
    ∧ (outsAt1 V c t.val t.isLt).o5 = (outsAt1 V c t.val t.isLt).s0 ∧ (outsAt1 V c t.val t.isLt).o6 = (outsAt1 V c t.val t.isLt).s1 := by
  rw [outsAt1_C V c t h0 h1]
  unfold stC1; dsimp only
  have h := run1C_acc c t (blk1_0 V c t) (blk1_1 V c t) (blk1_2 V c t) (blk1_3 V c t) (blk1_4 V c t) h0 h1 (prev1 V c t)
  have g := run1C_out c t (blk1_0 V c t) (blk1_1 V c t) (blk1_2 V c t) (blk1_3 V c t) (blk1_4 V c t) h0 h1 (prev1 V c t)
  exact ⟨h, g.1.trans h.1.symm, g.2.trans h.2.symm⟩

theorem outsAt1_acc_all (c : Dev nD) : ∀ (n : ℕ) (hn : n < cfg1.N),
    (outsAt1 V c n hn).s0 = (accAt1 (xarr1 V c) (tcarr1 V c) (trarr1 V c) (pmarr1 V c) n hn).a0 ∧ (outsAt1 V c n hn).s1 = (accAt1 (xarr1 V c) (tcarr1 V c) (trarr1 V c) (pmarr1 V c) n hn).a1
  | 0, hn => by
    have h := outsAt1_first V c ⟨0, hn⟩ (Nat.zero_mod _) (by show ¬0 % 16 = 15; omega)
    rw [accAt1_zero, step1_blk V c 0 hn init1]
    exact h
  | n + 1, hn => by
    have ih := outsAt1_acc_all c n (Nat.lt_of_succ_lt hn)
    by_cases h0 : (n + 1) % 16 = 0
    · have h := outsAt1_first V c ⟨n + 1, hn⟩ h0 (by show ¬(n + 1) % 16 = 15; omega)
      rw [accAt1_reset _ _ _ _ n hn h0, step1_blk V c (n + 1) hn init1]
      exact h
    · have e : (accAt1 (xarr1 V c) (tcarr1 V c) (trarr1 V c) (pmarr1 V c) n (Nat.lt_of_succ_lt hn)) = ⟨(outsAt1 V c n (Nat.lt_of_succ_lt hn)).s0, (outsAt1 V c n (Nat.lt_of_succ_lt hn)).s1⟩ := by
        rw [ih.1, ih.2]
      rw [accAt1_carry _ _ _ _ n hn h0, step1_blk V c (n + 1) hn _, e]
      by_cases h1 : (n + 1) % 16 = 15
      · exact (outsAt1_last V c ⟨n + 1, hn⟩ h0 h1).1
      · exact outsAt1_inner V c ⟨n + 1, hn⟩ h0 h1

theorem outsAt1_out (c : Dev nD) (t : Fin cfg1.N) (h1 : t.val % 16 = 15) :
    (outsAt1 V c t.val t.isLt).o5 = (accAt1 (xarr1 V c) (tcarr1 V c) (trarr1 V c) (pmarr1 V c) t.val t.isLt).a0 ∧ (outsAt1 V c t.val t.isLt).o6 = (accAt1 (xarr1 V c) (tcarr1 V c) (trarr1 V c) (pmarr1 V c) t.val t.isLt).a1 := by
  have h := outsAt1_last V c t (by omega) h1
  have hs := outsAt1_acc_all V c t.val t.isLt
  exact ⟨h.2.1.trans hs.1, h.2.2.trans hs.2⟩

end Value

theorem mem_blk1_5 (t : Fin cfg1.N) (i : S4096x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v3_0).slice (win1_5.rect t)).set ↔ _
  rw [View.set_slice_whole, Rect.mem_set_unit]
  exact Iff.rfl

theorem cover1_5 (i : S4096x1.Idx) : ∃ t : Fin cfg1.N, (cfg1.win 5).flush t = true ∧ i ∈ ((cfg1.win 5).blk t).view.set := by
  have hi0 := idx2_lt0 i
  have hi1 := idx2_lt1 i
  obtain ⟨t, ht⟩ : ∃ t : Fin cfg1.N, t.val = 16 * ((i 0).val / 256) + 15 :=
    ⟨⟨16 * ((i 0).val / 256) + 15, lt_of_lt_of_eq (last_lt hi0) N_1.symm⟩, rfl⟩
  obtain ⟨-, -, -, -, -, -, -, -, -, -, e0, e1, -⟩ := idx1 t
  refine ⟨t, (flush1_5 t).mpr (by omega), ?_⟩
  rw [mem_blk1_5]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1 ≤ (i 1).val ∧ (i 1).val < win1_5.index t (1 : Fin 2) * 1 + 1; omega

theorem mem_blk1_6 (t : Fin cfg1.N) (i : S4096x1.Idx) :
    i ∈ ((cfg1.win 6).blk t).view.set ↔ ∀ a : Fin 2, win1_6.index t a * S256x1.size a ≤ (i a).val ∧ (i a).val < win1_6.index t a * S256x1.size a + S256x1.size a := by
  show i ∈ ((View.whole main_v3_1).slice (win1_6.rect t)).set ↔ _
  rw [View.set_slice_whole, Rect.mem_set_unit]
  exact Iff.rfl

theorem cover1_6 (i : S4096x1.Idx) : ∃ t : Fin cfg1.N, (cfg1.win 6).flush t = true ∧ i ∈ ((cfg1.win 6).blk t).view.set := by
  have hi0 := idx2_lt0 i
  have hi1 := idx2_lt1 i
  obtain ⟨t, ht⟩ : ∃ t : Fin cfg1.N, t.val = 16 * ((i 0).val / 256) + 15 :=
    ⟨⟨16 * ((i 0).val / 256) + 15, lt_of_lt_of_eq (last_lt hi0) N_1.symm⟩, rfl⟩
  obtain ⟨-, -, -, -, -, -, -, -, -, -, -, -, e0, e1⟩ := idx1 t
  refine ⟨t, (flush1_6 t).mpr (by omega), ?_⟩
  rw [mem_blk1_6]
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 1 ≤ (i 1).val ∧ (i 1).val < win1_6.index t (1 : Fin 2) * 1 + 1; omega

section Final
variable (V : (c : Dev nD) → (b : Ref sig .tc) → Buf (Elt F) ((c : Thread nD τ).loc b))

theorem flushed1_5 (c : Dev nD) (t : Fin cfg1.N) (hf : (cfg1.win 5).flush t = true) :
    (dat1 V c).flushed 5 t = ((cfg1.win 5).blk t).view.read (Elt F) (out1 (xarr1 V c) (tcarr1 V c) (trarr1 V c) (pmarr1 V c) (fun a => a.a0) : Vec F S4096x1 .f32) := by
  have h1 : t.val % 16 = 15 := (flush1_5 t).mp hf
  obtain ⟨-, -, -, -, -, -, -, -, -, -, e0, e1, -⟩ := idx1 t
  show (cfg1.win 5).cut (grid1.coords t) ((dat1 V c).after 5 t) = _
  rw [after1_5, (outsAt1_out V c t h1).1]
  funext j
  rw [View.read_apply]
  refine (out1_apply (xarr1 V c) (tcarr1 V c) (trarr1 V c) (pmarr1 V c) (fun a => a.a0) t.val t.isLt h1 _ (win1_5.xinj (grid1.coords t) j) ?_).symm
  show win1_5.index t (0 : Fin 2) * 256 + 1 * (j 0).val = 256 * (t.val / 16) + (j 0).val
  omega

theorem flushed1_6 (c : Dev nD) (t : Fin cfg1.N) (hf : (cfg1.win 6).flush t = true) :
    (dat1 V c).flushed 6 t = ((cfg1.win 6).blk t).view.read (Elt F) (out1 (xarr1 V c) (tcarr1 V c) (trarr1 V c) (pmarr1 V c) (fun a => a.a1) : Vec F S4096x1 .f32) := by
  have h1 : t.val % 16 = 15 := (flush1_6 t).mp hf
  obtain ⟨-, -, -, -, -, -, -, -, -, -, -, -, e0, e1⟩ := idx1 t
  show (cfg1.win 6).cut (grid1.coords t) ((dat1 V c).after 6 t) = _
  rw [after1_6, (outsAt1_out V c t h1).2]
  funext j
  rw [View.read_apply]
  refine (out1_apply (xarr1 V c) (tcarr1 V c) (trarr1 V c) (pmarr1 V c) (fun a => a.a1) t.val t.isLt h1 _ (win1_6.xinj (grid1.coords t) j) ?_).symm
  show win1_6.index t (0 : Fin 2) * 256 + 1 * (j 0).val = 256 * (t.val / 16) + (j 0).val
  omega

theorem final1_5 (c : Dev nD) :
    (dat1 V c).arrAt 5 cfg1.N = (out1 (V c main_arg0) (V c main_v0) (V c main_v1) (V c main_v2_0) (fun a => a.a0) : Vec F S4096x1 .f32) :=
  (dat1 V c).arrAt_eq_of_cover 5 _ (flushed1_5 V c) cover1_5

theorem final1_6 (c : Dev nD) :
    (dat1 V c).arrAt 6 cfg1.N = (out1 (V c main_arg0) (V c main_v0) (V c main_v1) (V c main_v2_0) (fun a => a.a1) : Vec F S4096x1 .f32) :=
  (dat1 V c).arrAt_eq_of_cover 6 _ (flushed1_6 V c) cover1_6

end Final

end Cert.KernelIdeal.Hand

end
-- ==== Proof.KI.Tail.lean ====
import proofs.«105460_j37082747634119_1_alg».proof.Proof.Gen.KernelIdeal.Launch
import Idealize.ShloMosaic.Lib.StableHlo.Run
import proofs.«105460_j37082747634119_1_alg».proof.Proof.Gen.KernelIdeal.Regions

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

def flat (a : Vec F S4096x1 .f32) : Vec F S4096 .f32 := shapeCast S4096 a shapeCasts_S4096x1_S4096

def splat4096 (w : BitVec 32) : Vec F S4096 .f32 := broadcastInDim S4096 ![] bcast_S_S4096 (constant (F := F) S_ .f32 w)

def hasHard (cnt : Vec F S4096x1 .f32) : IVec S4096 1 := cmpf (F := F) .ogt (flat cnt) (splat4096 0x00000000#32)

def sumAll (v : Vec F S4096 .f32) : Vec F S_ .f32 := Host.reduceAdd v (constant (F := F) S_ .f32 0x00000000#32) reducesTo_S4096_S_d0 h_S_

def resLoss (pmin cnt nh : Vec F S4096x1 .f32) : Vec F S_ .f32 :=
  Host.divf (sumAll (select (hasHard cnt)
      (addf (subf (flat pmin) (Host.divf (flat nh) (maximumf (flat cnt) (splat4096 0x3F800000#32)))) (splat4096 0x3DCCCCCD#32))
      (broadcastInDim S4096 ![] bcast_S_S4096 (id (constant (F := F) S_ .f32 0x00000000#32)))))
    (constant (F := F) S_ .f32 0x45800000#32)

def resPrec (cnt : Vec F S4096x1 .f32) : Vec F S_ .f32 :=
  subf (constant (F := F) S_ .f32 0x3F800000#32) (Host.divf (sumAll (uitofp (F := F) .f32 (hasHard cnt))) (constant (F := F) S_ .f32 0x45800000#32))

def resRatio (a b : Vec F S4096x1 .f32) : Vec F S_ .f32 := Host.divf (sumAll (flat a)) (sumAll (flat b))

section Stretches
variable (U : Valuation τ sig (Elt F))

theorem pre_v0 : StableHlo.after hostOps0 U (Proc.devRef .tc main_v0) = (shapeCast S4096x1 (U (Proc.devRef .tc main_arg1)) shapeCasts_S4096_S4096x1 : Vec F S4096x1 .i32) := by
  after_results
  rfl
theorem pre_v1 : StableHlo.after hostOps0 U (Proc.devRef .tc main_v1) = (shapeCast S1x4096 (U (Proc.devRef .tc main_arg1)) shapeCasts_S4096_S1x4096 : Vec F S1x4096 .i32) := by
  after_results
  rfl
theorem pre_arg0 : StableHlo.after hostOps0 U (Proc.devRef .tc main_arg0) = U (Proc.devRef .tc main_arg0) := by
  exact StableHlo.after_of_writes_sub hostOps0 U hostOps0_writes (by decide)

abbrev afterTail : Valuation τ sig (Elt F) := StableHlo.after hostOps2_2 (StableHlo.after hostOps2_1 (StableHlo.after hostOps2 U))

theorem tail_v21 : afterTail U (Proc.devRef .tc main_v21) = resLoss (U (Proc.devRef .tc main_v2_0)) (U (Proc.devRef .tc main_v3_0)) (U (Proc.devRef .tc main_v3_1)) := by
  show StableHlo.after hostOps2_2 _ (Proc.devRef .tc main_v21) = _
  after_results_simp
  simp only [TRef.ofBuf, TRef.toBuf, cast_eq]
  rfl
theorem tail_v25 : afterTail U (Proc.devRef .tc main_v25) = resPrec (U (Proc.devRef .tc main_v3_0)) := by
  show StableHlo.after hostOps2_2 _ (Proc.devRef .tc main_v25) = _
  after_results_simp
  rfl
theorem tail_v28 : afterTail U (Proc.devRef .tc main_v28) = resRatio (U (Proc.devRef .tc main_v2_1)) (U (Proc.devRef .tc main_v2_2)) := by
  show StableHlo.after hostOps2_2 _ (Proc.devRef .tc main_v28) = _
  after_results_simp
  rfl
theorem tail_v31 : afterTail U (Proc.devRef .tc main_v31) = resRatio (U (Proc.devRef .tc main_v2_3)) (U (Proc.devRef .tc main_v2_4)) := by
  show StableHlo.after hostOps2_2 _ (Proc.devRef .tc main_v31) = _
  after_results_simp
  rfl
end Stretches

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev S4096x512 : Shape := ⟨2, ![4096, 512]⟩
abbrev S4096 : Shape := ⟨1, ![4096]⟩

variable (X : S4096x512.Idx → EReal) (g : S4096.Idx → BitVec 32)

def eps : EReal := Ideal.ofBits .f32 0x2B8CBCCC#32
def two : EReal := Ideal.ofBits .f32 0x40000000#32
def margin : EReal := Ideal.ofBits .f32 0x3DCCCCCD#32
def one : EReal := Ideal.ofBits .f32 0x3F800000#32
def nRows : EReal := Ideal.ofBits .f32 0x45800000#32

def sq (r : Fin 4096) : EReal := ∑ k : Fin 512, X (ix2 r k) * X (ix2 r k)
def cross (r s : Fin 4096) : EReal := ∑ k : Fin 512, X (ix2 r k) * X (ix2 s k)
def dist (r s : Fin 4096) : EReal := Ideal.sqrt (max eps (sq X r + sq X s - two * cross X r s))

def same (r s : Fin 4096) : Prop := g (ix1 r) = g (ix1 s)
instance (r s : Fin 4096) : Decidable (same g r s) := by unfold same; infer_instance
def pos (r s : Fin 4096) : Prop := same g r s ∧ r ≠ s
instance (r s : Fin 4096) : Decidable (pos g r s) := by unfold pos; infer_instance

def posMin (r : Fin 4096) : EReal := (Finset.univ : Finset (Fin 4096)).fold min ⊤ fun s => if pos g r s then dist X r s else ⊤
def posSum (r : Fin 4096) : EReal := ∑ s : Fin 4096, if pos g r s then dist X r s else 0
def posCnt (r : Fin 4096) : EReal := ∑ s : Fin 4096, if pos g r s then (1 : EReal) else 0
def negSum (r : Fin 4096) : EReal := ∑ s : Fin 4096, if ¬ same g r s then dist X r s else 0
def negCnt (r : Fin 4096) : EReal := ∑ s : Fin 4096, if ¬ same g r s then (1 : EReal) else 0

def hard (r s : Fin 4096) : Prop := ¬ same g r s ∧ dist X r s < posMin X g r + margin
instance (r s : Fin 4096) : Decidable (hard X g r s) := Classical.dec _
def hardCnt (r : Fin 4096) : EReal := ∑ s : Fin 4096, if hard X g r s then (1 : EReal) else 0
def hardSum (r : Fin 4096) : EReal := ∑ s : Fin 4096, if hard X g r s then dist X r s else 0

def lossRow (r : Fin 4096) : EReal :=
  if 0 < hardCnt X g r then posMin X g r - Ideal.div (hardSum X g r) (max (hardCnt X g r) one) + margin else 0

def loss : EReal := Ideal.div (∑ r : Fin 4096, lossRow X g r) nRows
def prec : EReal := one - Ideal.div (∑ r : Fin 4096, if 0 < hardCnt X g r then (1 : EReal) else 0) nRows
def posMean : EReal := Ideal.div (∑ r : Fin 4096, posSum X g r) (∑ r : Fin 4096, posCnt g r)
def negMean : EReal := Ideal.div (∑ r : Fin 4096, negSum X g r) (∑ r : Fin 4096, negCnt g r)

theorem cmpi_eq_ite {w : Nat} (a b : BitVec w) : IntOp.cmpi .eq a b = if a = b then 1#1 else 0#1 := by
  show BitVec.ofBool (a == b) = _
  by_cases h : a = b
  · rw [if_pos h, show (a == b) = true from beq_iff_eq.mpr h]; rfl
  · rw [if_neg h, show (a == b) = false from beq_eq_false_iff_ne.mpr h]; rfl

theorem cmp_olt (x y : EReal) : Ideal.cmp .olt x y = if x < y then 1#1 else 0#1 := by
  unfold Ideal.cmp
  by_cases h : x < y <;> simp [h]

theorem top_word : Ideal.ofBits .f32 0x7F800000#32 = (⊤ : EReal) := by
  simp [Ideal.ofBits, Ideal.ieee]

theorem ofNat_inj_small {a b : ℕ} (ha : a < 4096) (hb : b < 4096) : BitVec.ofNat 32 a = BitVec.ofNat 32 b ↔ a = b := by
  constructor
  · intro h
    have h' := congrArg BitVec.toNat h
    simp only [BitVec.toNat_ofNat] at h'
    omega
  · rintro rfl; rfl

end Cert.Spec

end
-- ==== Proof.KI.FinalMath.lean ====
import proofs.«105460_j37082747634119_1_alg».proof.Proof.KI.Tail
import proofs.«105460_j37082747634119_1_alg».proof.Proof.Spec
import Idealize.ShloMosaic.PureOps.Ideal.Laws
import Idealize.ShloMosaic.Lib.Pipeline.Value
import Idealize.ShloMosaic.Lib.ValueLayout
import Idealize.ShloMosaic.Lib.ValueIdxRank1

noncomputable section

namespace Cert.KernelIdeal.Hand

open Idealize.ShloMosaic Idealize.ShloMosaic.ValueIdx
open Cert.KernelIdeal Cert.KernelIdeal.Gen

theorem flat_apply {F : FTy → Type} [FloatOps F] (a : Vec F S4096x1 .f32) (r : Fin 4096) :
    flat a (ix1 r) = a (ix2 r (0 : Fin 1)) := by
  unfold flat
  refine shapeCast_apply a _ _ _ ?_
  rw [Shape.rowMajor_val_two, Shape.rowMajor_val_one]
  show r.val * 1 + 0 = r.val
  omega

theorem splat4096_apply (w : BitVec 32) (j : S4096.Idx) : splat4096 (F := Ideal) w j = Ideal.ofBits .f32 w := rfl

theorem sumAll_apply (v : Vec Ideal S4096 .f32) (i : S_.Idx) : sumAll (F := Ideal) v i = ∑ r : Fin 4096, v (ix1 r) := by
  unfold sumAll
  simp only [Host.reduceAdd, Ideal.hostReduceAdd_def]
  rw [Ideal.hostReduceAdd_total reducesTo_S4096_S_d0 (fun b => b.elim0)]
  show Ideal.ofBits .f32 0x00000000#32 + _ = _
  rw [Ideal.ofBits_zero_f32, zero_add]
  exact (Equiv.sum_comp (idxEquiv1 (n := 4096)).symm v).symm

theorem hasHard_apply (cnt : Vec Ideal S4096x1 .f32) (r : Fin 4096) :
    hasHard (F := Ideal) cnt (ix1 r) = BitVec.ofBool (decide (0 < cnt (ix2 r (0 : Fin 1)))) := by
  unfold hasHard
  show Ideal.cmp .ogt (flat cnt (ix1 r)) (splat4096 (F := Ideal) 0x00000000#32 (ix1 r)) = _
  rw [flat_apply, splat4096_apply, Ideal.ofBits_zero_f32]
  rfl

theorem select_ofBool {α : Type} (p : Prop) [Decidable p] (a b : α) :
    Scalar.select (BitVec.ofBool (decide p)) a b = if p then a else b := by
  by_cases h : p <;> simp [Scalar.select, h]

theorem uitofp_ofBool (p : Prop) [Decidable p] :
    (FloatOps.uitofp (F := Ideal) .f32 (BitVec.ofBool (decide p)) : EReal) = if p then 1 else 0 := by
  show (((BitVec.ofBool (decide p)).toNat : ℝ) : EReal) = _
  by_cases h : p <;> simp [h]

variable (X : Vec Ideal S4096x512 .f32) (tg : Vec Ideal S4096 .i32)

theorem resLoss_spec (pmin cnt nh : Vec Ideal S4096x1 .f32)
    (h0 : ∀ r : Fin 4096, pmin (ix2 r (0 : Fin 1)) = Spec.posMin X tg r)
    (h1 : ∀ r : Fin 4096, cnt (ix2 r (0 : Fin 1)) = Spec.hardCnt X tg r)
    (h2 : ∀ r : Fin 4096, nh (ix2 r (0 : Fin 1)) = Spec.hardSum X tg r) :
    resLoss (F := Ideal) pmin cnt nh = fun _ => Spec.loss X tg := by
  funext i
  unfold resLoss
  show Ideal.div (sumAll (F := Ideal) _ i) (Ideal.ofBits .f32 0x45800000#32) = _
  rw [sumAll_apply]
  unfold Spec.loss Spec.nRows
  refine congrArg (fun s => Ideal.div s (Ideal.ofBits .f32 0x45800000#32)) (Finset.sum_congr rfl fun r _ => ?_)
  show Scalar.select (hasHard (F := Ideal) cnt (ix1 r))
      ((flat pmin (ix1 r) - Ideal.div (flat nh (ix1 r)) (max (flat cnt (ix1 r)) (splat4096 (F := Ideal) 0x3F800000#32 (ix1 r))))
        + splat4096 (F := Ideal) 0x3DCCCCCD#32 (ix1 r))
      (Ideal.ofBits .f32 0x00000000#32) = _
  rw [hasHard_apply, select_ofBool, flat_apply, flat_apply, flat_apply, splat4096_apply, splat4096_apply, Ideal.ofBits_zero_f32,
    h0, h1, h2]
  rfl

theorem resPrec_spec (cnt : Vec Ideal S4096x1 .f32)
    (h1 : ∀ r : Fin 4096, cnt (ix2 r (0 : Fin 1)) = Spec.hardCnt X tg r) :
    resPrec (F := Ideal) cnt = fun _ => Spec.prec X tg := by
  funext i
  unfold resPrec
  show Ideal.ofBits .f32 0x3F800000#32 - Ideal.div (sumAll (F := Ideal) _ i) (Ideal.ofBits .f32 0x45800000#32) = _
  rw [sumAll_apply]
  unfold Spec.prec Spec.one Spec.nRows
  refine congrArg (fun s => Ideal.ofBits .f32 0x3F800000#32 - Ideal.div s (Ideal.ofBits .f32 0x45800000#32))
    (Finset.sum_congr rfl fun r _ => ?_)
  show FloatOps.uitofp (F := Ideal) .f32 (hasHard (F := Ideal) cnt (ix1 r)) = _
  rw [hasHard_apply, uitofp_ofBool, h1]

theorem resRatio_pos (a b : Vec Ideal S4096x1 .f32)
    (ha : ∀ r : Fin 4096, a (ix2 r (0 : Fin 1)) = Spec.posSum X tg r)
    (hb : ∀ r : Fin 4096, b (ix2 r (0 : Fin 1)) = Spec.posCnt tg r) :
    resRatio (F := Ideal) a b = fun _ => Spec.posMean X tg := by
  funext i
  unfold resRatio
  show Ideal.div (sumAll (F := Ideal) (flat a) i) (sumAll (F := Ideal) (flat b) i) = _
  rw [sumAll_apply, sumAll_apply]
  simp only [flat_apply, ha, hb]
  rfl

theorem resRatio_neg (a b : Vec Ideal S4096x1 .f32)
    (ha : ∀ r : Fin 4096, a (ix2 r (0 : Fin 1)) = Spec.negSum X tg r)
    (hb : ∀ r : Fin 4096, b (ix2 r (0 : Fin 1)) = Spec.negCnt tg r) :
    resRatio (F := Ideal) a b = fun _ => Spec.negMean X tg := by
  funext i
  unfold resRatio
  show Ideal.div (sumAll (F := Ideal) (flat a) i) (sumAll (F := Ideal) (flat b) i) = _
  rw [sumAll_apply, sumAll_apply]
  simp only [flat_apply, ha, hb]
  rfl

end Cert.KernelIdeal.Hand

end
-- ==== Proof.KI.TileMath.lean ====
import proofs.«105460_j37082747634119_1_alg».proof.Proof.KI.Fold
import proofs.«105460_j37082747634119_1_alg».proof.Proof.Spec
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Hand

open Idealize.ShloMosaic Idealize.ShloMosaic.ValueIdx
open Cert.KernelIdeal Cert.KernelIdeal.Gen

-- A column spread along the columns reads its row's entry, whatever the element type.
theorem bcastCol {α : Type} (v : S256x1.Idx → α) (p q : Fin 256) :
    broadcastTo S256x256 v broadcasts_S256x1_S256x256 (ix2 p q) = v (ix2 p (0 : Fin 1)) :=
  broadcastTo_apply v _ _ _ fun a => match a with | ⟨0, _⟩ => rfl | ⟨1, _⟩ => rfl

-- A vector cast to a column keeps its entries: both are laid out in the same order.
theorem castCol {α : Type} {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) :=
  shapeCast_apply v h _ _ (by
    rw [Shape.rowMajor_val_one, Shape.rowMajor_val_two]
    show p.val = p.val * 1 + 0
    omega)

theorem laneSum_apply (A : FVec Ideal S256x512 .f32) (p : Fin 256) :
    multiReduction (F := Ideal) .add [1] S256 A 0x00000000#32 reduces_S256x512_S256 (.inl rfl) rfl (ix1 p)
      = ∑ k : Fin 512, A (ix2 p k) :=
  (Ideal.multiReduction_add_single A _ reduces_S256x512_S256 (.inl rfl) rfl (ix1 p)).trans
    (Finset.sum_congr rfl fun k _ => congrArg A (funext fun a => match a with | ⟨0, _⟩ => rfl | ⟨1, _⟩ => rfl))

theorem product_apply (L : FVec Ideal S256x512 .bf16) (R : FVec Ideal S512x256 .bf16) (p q : Fin 256) :
    matmul dot_S256x512_S512x256_S256x256_1_0_0_1_n_n none L R (constant (F := Ideal) S256x256 .f32 0x00000000#32) (ix2 p q)
      = ∑ c : Fin 512, L (ix2 p c) * R (ix2 c q) := by
  show FloatOps.matmul _ none L R _ (ix2 p q) = _
  rw [Ideal.matmul_constant_zero_apply,
    ← Equiv.sum_comp (contrEquiv1 dot_S256x512_S512x256_S256x256_1_0_0_1_n_n 512 rfl rfl).symm]
  refine Finset.sum_congr rfl fun c _ => ?_
  have hc := contrEquiv1_symm_val dot_S256x512_S512x256_S256x256_1_0_0_1_n_n 512 rfl rfl c
  refine congrArg₂ (fun a b => L a * R b) (funext fun ax => Fin.ext ?_) (funext fun ax => Fin.ext ?_)
  · match ax with
    | ⟨0, _⟩ => simp [DotDims.lhsIdx, dot_S256x512_S512x256_S256x256_1_0_0_1_n_n]; rfl
    | ⟨1, _⟩ => exact (DotDims.lhsIdx_val_of_single _ rfl _ _).trans hc
  · match ax with
    | ⟨0, _⟩ => exact (DotDims.rhsIdx_val_of_single _ rfl _ _).trans hc
    | ⟨1, _⟩ => simp [DotDims.rhsIdx, dot_S256x512_S512x256_S256x256_1_0_0_1_n_n]; rfl

variable (X : Vec Ideal S4096x512 .f32) (tg : Vec Ideal S4096 .i32)

def colT : Vec Ideal S4096x1 .i32 := shapeCast S4096x1 tg shapeCasts_S4096_S4096x1
def rowT : Vec Ideal S1x4096 .i32 := shapeCast S1x4096 tg shapeCasts_S4096_S1x4096

abbrev rowOf (b : ℕ) (hb : b < 16) (p : Fin 256) : Fin 4096 := ⟨256 * b + p.val, by omega⟩

-- The tile's entry is the root of the clamped |x|² + |y|² - 2 x·y of the two rows: each reduction and spread read at the index.
theorem dist_tile (bi bj : ℕ) (hbi : bi < 16) (hbj : bj < 16) (p q : Fin 256) :
    k0_pay8 (F := Ideal) (rowsX X bi hbi) (rowsX X bj hbj) (ix2 p q) = Spec.dist X (rowOf bi hbi p) (rowOf bj hbj q) := by
  unfold k0_pay8
  show Ideal.sqrt (max _
      ((broadcastTo S256x256 (shapeCast S256x1 (multiReduction (F := Ideal) .add [1] S256 (mulf (rowsX X bi hbi) (rowsX X bi hbi)) _ _ _ _) _) _ (ix2 p q)
        + broadcastTo S256x256 (shapeCast S1x256 (multiReduction (F := Ideal) .add [1] S256 (mulf (rowsX X bj hbj) (rowsX X bj hbj)) _ _ _ _) _) _ (ix2 p q))
       - _ * matmul _ none (truncf .bf16 (rowsX X bi hbi) _) (transpose S512x256 [1, 0] (truncf .bf16 (rowsX X bj hbj) _) _) _ (ix2 p q))) = _
  rw [bcastCol, castCol, broadcastTo_1b_ab_apply, shapeCast_a_1a_apply, product_apply, laneSum_apply, laneSum_apply]
  simp only [transpose_ix2_apply]
  rfl

theorem dist_tile1 (bi bj : ℕ) (hbi : bi < 16) (hbj : bj < 16) (p q : Fin 256) :
    k1_pay6 (F := Ideal) (rowsX X bi hbi) (rowsX X bj hbj) (ix2 p q) = Spec.dist X (rowOf bi hbi p) (rowOf bj hbj q) :=
  dist_tile X bi bj hbi hbj p q

-- A block's label entries are the labels of its global rows, so they agree exactly when the rows are of one class.
theorem label_eq (bi bj : ℕ) (hbi : bi < 16) (hbj : bj < 16) (p q : Fin 256) :
    rowsC (colT tg) bi hbi (ix2 p (0 : Fin 1)) = colsR (rowT tg) bj hbj (ix2 (0 : Fin 1) q)
      ↔ Spec.same tg (rowOf bi hbi p) (rowOf bj hbj q) := by
  rw [show rowsC (colT tg) bi hbi (ix2 p (0 : Fin 1)) = tg (ix1 (rowOf bi hbi p)) from castCol tg _ (rowOf bi hbi p),
    show colsR (rowT tg) bj hbj (ix2 (0 : Fin 1) q) = tg (ix1 (rowOf bj hbj q)) from shapeCast_a_1a_apply tg _ 0 (rowOf bj hbj q)]
  exact Iff.rfl

theorem same_tile (bi bj : ℕ) (hbi : bi < 16) (hbj : bj < 16) (p q : Fin 256) :
    k0_pay9 (F := Ideal) (rowsC (colT tg) bi hbi) (colsR (rowT tg) bj hbj) (ix2 p q)
      = if Spec.same tg (rowOf bi hbi p) (rowOf bj hbj q) then 1#1 else 0#1 := by
  unfold k0_pay9
  show IntOp.cmpi .eq (broadcastTo S256x256 (shapeCast S256x1 _ _) _ (ix2 p q))
      (broadcastTo S256x256 (shapeCast S1x256 _ _) _ (ix2 p q)) = _
  rw [shapeCast_self, shapeCast_self, bcastCol, broadcastTo_1b_ab_apply, Spec.cmpi_eq_ite]
  exact if_congr (label_eq tg bi bj hbi hbj p q) rfl rfl

-- Pass 2's mask is the complement of pass 1's same-class bit.
theorem other_tile1 (bi bj : ℕ) (hbi : bi < 16) (hbj : bj < 16) (p q : Fin 256) :
    k1_pay7 (F := Ideal) (rowsC (colT tg) bi hbi) (colsR (rowT tg) bj hbj) (ix2 p q)
      = if Spec.same tg (rowOf bi hbi p) (rowOf bj hbj q) then 0#1 else 1#1 :=
  (congrArg (IntOp.xori · 1#1) (same_tile tg bi bj hbi hbj p q)).trans (apply_ite (IntOp.xori · 1#1) _ _ _)

theorem window_tile1 (pm : Vec Ideal S4096x1 .f32) (bi bj : ℕ) (hbi : bi < 16) (hbj : bj < 16) (p q : Fin 256) :
    k1_pay8 (F := Ideal) (rowsX X bi hbi) (rowsX X bj hbj) (rowsC pm bi hbi) (ix2 p q)
      = if Spec.dist X (rowOf bi hbi p) (rowOf bj hbj q) < pm (ix2 (rowOf bi hbi p) (0 : Fin 1)) + Spec.margin then 1#1 else 0#1 := by
  unfold k1_pay8
  show Ideal.cmp .olt (k1_pay6 (F := Ideal) (rowsX X bi hbi) (rowsX X bj hbj) (ix2 p q))
      (broadcastTo S256x256 (addf (F := Ideal) (φ := .f32) (shapeCast S256x1 (rowsC pm bi hbi) _) _) _ (ix2 p q)) = _
  rw [bcastCol, shapeCast_self, dist_tile1, Spec.cmp_olt]
  rfl

-- The global row number in 32-bit words: no wrap-around, since it stays below 4096.
theorem word_row (b p : ℕ) (hb : b < 16) (hp : p < 256) :
    IntOp.addi (Scalar.muli (BitVec.ofNat 32 b) 256#32) (BitVec.ofNat 32 p) = BitVec.ofNat 32 (256 * b + p) := by
  apply BitVec.eq_of_toNat_eq
  simp only [IntOp.addi, Scalar.muli, IntOp.muli, BitVec.toNat_add, BitVec.toNat_mul, BitVec.toNat_ofNat]
  omega

theorem pay10_apply (i : grid0.Coords) (p q : Fin 256) :
    k0_pay10 i (ix2 p q) = IntOp.cmpi .eq
      (IntOp.addi (Scalar.muli (BitVec.ofNat 32 (i 0).val) 256#32) (BitVec.ofNat 32 p.val))
      (IntOp.addi (Scalar.muli (BitVec.ofNat 32 (i 1).val) 256#32) (BitVec.ofNat 32 q.val)) := by
  unfold k0_pay10
  show IntOp.cmpi .eq
      (IntOp.addi _ (iota .tc S256x256 32 [0] iota_S256x256_d0_w32 (ix2 p q)))
      (IntOp.addi _ (iota .tc S256x256 32 [1] iota_S256x256_d1_w32 (ix2 p q))) = _
  rw [iota_single_apply, iota_single_apply]
  rfl

-- Point n is row block n / 16 against column block n % 16.
theorem eye_tile (n : ℕ) (hn : n < grid0.N) (p q : Fin 256) :
    k0_pay10 (grid0.coords ⟨n, hn⟩) (ix2 p q)
      = if rowOf (n / 16) (div16_lt (lt_of_lt_of_eq hn (by decide))) p = rowOf (n % 16) (mod16_lt n) q then 1#1 else 0#1 := by
  have hN : n < 256 := lt_of_lt_of_eq hn (by decide)
  have c0 : (grid0.coords ⟨n, hn⟩ 0).val = n / 16 := by
    show n / grid0.stride 0 % 16 = n / 16
    rw [show grid0.stride 0 = 16 from by decide]
    omega
  have c1 : (grid0.coords ⟨n, hn⟩ 1).val = n % 16 := by
    show n / grid0.stride 1 % 16 = n % 16
    rw [show grid0.stride 1 = 1 from by decide]
    omega
  rw [pay10_apply, c0, c1, word_row (n / 16) p.val (div16_lt hN) p.isLt,
    word_row (n % 16) q.val (mod16_lt n) q.isLt, Spec.cmpi_eq_ite]
  exact if_congr ((Spec.ofNat_inj_small (by have := p.isLt; omega) (by have := q.isLt; have := mod16_lt n; omega)).trans
    ⟨fun h => Fin.ext h, fun h => congrArg Fin.val h⟩) rfl rfl

end Cert.KernelIdeal.Hand

end
-- ==== Proof.KI.AccMath0.lean ====
import proofs.«105460_j37082747634119_1_alg».proof.Proof.KI.TileMath

noncomputable section

namespace Cert.KernelIdeal.Hand

open Idealize.ShloMosaic Idealize.ShloMosaic.ValueIdx
open Cert.KernelIdeal Cert.KernelIdeal.Gen

variable (X : Vec Ideal S4096x512 .f32) (tg : Vec Ideal S4096 .i32)

namespace Pass1

theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem lift_row (p q : Fin 256) : reduces_S256x256_S256.lift (ix1 p) q = ix2 p q :=
  funext fun c => match c with | ⟨0, _⟩ => rfl | ⟨1, _⟩ => rfl

theorem lane_add (v : FVec Ideal S256x256 .f32) (p : Fin 256) :
    shapeCast S256x1 (multiReduction (F := Ideal) .add [1] S256 v 0x00000000#32 reduces_S256x256_S256 (.inl rfl) rfl)
        shapeCasts_S256_S256x1 (ix2 p (0 : Fin 1))
      = ∑ q : Fin 256, v (ix2 p q) :=
  (castCol _ _ p).trans ((Ideal.multiReduction_add_single v _ reduces_S256x256_S256 (.inl rfl) rfl (ix1 p)).trans
    (Finset.sum_congr rfl fun q _ => congrArg v (lift_row p q)))

theorem lane_min (v : FVec Ideal S256x256 .f32) (p : Fin 256) :
    shapeCast S256x1 (multiReduction (F := Ideal) .minimumf [1] S256 v 0x7F800000#32 reduces_S256x256_S256 (.inl rfl) rfl)
        shapeCasts_S256_S256x1 (ix2 p (0 : Fin 1))
      = (Finset.univ : Finset (Fin 256)).fold min ⊤ fun q => v (ix2 p q) := by
  refine (castCol _ _ p).trans ((multiReduction_minimumf_single v _ reduces_S256x256_S256 (.inl rfl) rfl (ix1 p)).trans ?_)
  show (Finset.univ : Finset (Fin 256)).fold min (Ideal.ofBits .f32 0x7F800000#32) _ = _
  rw [Spec.top_word]
  congr 1
  funext q
  exact congrArg v (lift_row p q)

-- An accumulator column plus a tile's row sums, read at a row: every summed accumulator of both passes is of this form.
theorem add_col (prev : Vec Ideal S256x1 .f32) (T : FVec Ideal S256x256 .f32) (p : Fin 256) (g : Fin 256 → EReal)
    (hT : ∀ q, T (ix2 p q) = g q) :
    shapeCast S256x1 (addf prev (shapeCast S256x1 (multiReduction (F := Ideal) .add [1] S256 T 0x00000000#32
        reduces_S256x256_S256 (.inl rfl) rfl) shapeCasts_S256_S256x1)) shapeCasts_S256x1_S256x1 (ix2 p (0 : Fin 1))
      = prev (ix2 p (0 : Fin 1)) + ∑ q : Fin 256, g q :=
  (congrFun (shapeCast_self _ shapeCasts_S256x1_S256x1) _).trans
    (congrArg (prev (ix2 p (0 : Fin 1)) + ·) ((lane_add T p).trans (Finset.sum_congr rfl fun q _ => hT q)))

theorem zero_col (i : S256x1.Idx) :
    shapeCast S256x1 (broadcast S256x1 (Scalar.ofBits (F := Ideal) .f32 0x00000000#32)) shapeCasts_S256x1_S256x1 i = (0 : EReal) :=
  (congrFun (shapeCast_self _ shapeCasts_S256x1_S256x1) i).trans Ideal.ofBits_zero_f32

theorem pay3_apply (i : S256x1.Idx) : k0_pay3 (F := Ideal) i = (⊤ : EReal) := by
  unfold k0_pay3
  exact (congrFun (shapeCast_self _ shapeCasts_S256x1_S256x1) i).trans Spec.top_word

theorem pay11_apply (E I : IVec S256x256 1) (i : S256x256.Idx) :
    k0_pay11 E I i = IntOp.andi (E i) (IntOp.xori (I i) 1#1) := rfl
theorem pay12_apply (E : IVec S256x256 1) (i : S256x256.Idx) : k0_pay12 E i = IntOp.xori (E i) 1#1 := rfl

theorem bit_to_real (b : BitVec 1) : FloatOps.sitofp (F := Ideal) .f32 (b.setWidth 32) = if b = 1#1 then (1 : EReal) else 0 := by
  show (((b.setWidth 32).toInt : ℝ) : EReal) = _
  rcases BitVec.eq_zero_or_eq_one b with rfl | rfl <;> simp

def rowN (b : ℕ) (p : Fin 256) : Fin 4096 := ⟨(256 * b + p.val) % 4096, Nat.mod_lt _ (by decide)⟩

theorem rowOf_eq (b : ℕ) (hb : b < 16) (p : Fin 256) : rowOf b hb p = rowN b p := by
  apply Fin.ext
  show 256 * b + p.val = (256 * b + p.val) % 4096
  have := p.isLt
  omega

-- Every row is row r % 256 of block r / 256.
theorem last_row (r : Fin 4096) : rowN (r.val / 256) ⟨r.val % 256, Nat.mod_lt _ (by decide)⟩ = r :=
  Fin.ext (by show (256 * (r.val / 256) + r.val % 256) % 4096 = r.val; have := r.isLt; omega)

-- The 4096 columns are the 16 blocks of 256.
theorem sum_blocks (f : Fin 4096 → EReal) :
    ∑ jj ∈ Finset.range 16, ∑ q : Fin 256, f (rowN jj q) = ∑ s : Fin 4096, f s := by
  rw [Finset.sum_range, ← Equiv.sum_comp (finProdFinEquiv (m := 16) (n := 256)) f, Fintype.sum_prod_type]
  refine Finset.sum_congr rfl fun i _ => Finset.sum_congr rfl fun q _ => congrArg f (Fin.ext ?_)
  show (256 * i.val + q.val) % 4096 = q.val + 256 * i.val
  have := i.isLt
  have := q.isLt
  omega

theorem pos_mask (n : ℕ) (hn : n < grid0.N) (p q : Fin 256) :
    k0_pay11 (k0_pay9 (F := Ideal) (rowsC (colT tg) (n / 16) (div16_lt (lt_of_lt_of_eq hn (by decide))))
        (colsR (rowT tg) (n % 16) (mod16_lt n))) (k0_pay10 (grid0.coords ⟨n, hn⟩)) (ix2 p q) = 1#1
      ↔ Spec.pos tg (rowN (n / 16) p) (rowN (n % 16) q) := by
  rw [pay11_apply, same_tile tg (n / 16) (n % 16) _ _ p q, eye_tile n hn p q, rowOf_eq, rowOf_eq]
  unfold Spec.pos
  by_cases h1 : Spec.same tg (rowN (n / 16) p) (rowN (n % 16) q) <;>
    by_cases h2 : rowN (n / 16) p = rowN (n % 16) q <;>
    simp [h1, h2, IntOp.andi, IntOp.xori]

theorem neg_mask (n : ℕ) (hn : n < grid0.N) (p q : Fin 256) :
    k0_pay12 (k0_pay9 (F := Ideal) (rowsC (colT tg) (n / 16) (div16_lt (lt_of_lt_of_eq hn (by decide))))
        (colsR (rowT tg) (n % 16) (mod16_lt n))) (ix2 p q) = 1#1
      ↔ ¬ Spec.same tg (rowN (n / 16) p) (rowN (n % 16) q) := by
  rw [pay12_apply, same_tile tg (n / 16) (n % 16) _ _ p q, rowOf_eq, rowOf_eq]
  by_cases h1 : Spec.same tg (rowN (n / 16) p) (rowN (n % 16) q) <;>
    simp [h1, IntOp.xori]

theorem dist_tileN (n : ℕ) (hn : n < grid0.N) (p q : Fin 256) :
    k0_pay8 (F := Ideal) (rowsX X (n / 16) (div16_lt (lt_of_lt_of_eq hn (by decide)))) (rowsX X (n % 16) (mod16_lt n)) (ix2 p q)
      = Spec.dist X (rowN (n / 16) p) (rowN (n % 16) q) := by
  rw [dist_tile X (n / 16) (n % 16) _ _ p q, rowOf_eq, rowOf_eq]

-- One point folds the tile's row minimum over the positives into the nearest-positive distance.
theorem step0_a0 (n : ℕ) (hn : n < grid0.N) (acc : Acc0 Ideal) (p : Fin 256) :
    (step0 X (colT tg) (rowT tg) n hn acc).a0 (ix2 p (0 : Fin 1))
      = min (acc.a0 (ix2 p (0 : Fin 1))) ((Finset.univ : Finset (Fin 256)).fold min ⊤ fun q =>
          if Spec.pos tg (rowN (n / 16) p) (rowN (n % 16) q) then Spec.dist X (rowN (n / 16) p) (rowN (n % 16) q) else ⊤) := by
  show k0_pay13 (F := Ideal) _ _ _ _ (ix2 p (0 : Fin 1)) = _
  unfold k0_pay13
  refine (congrFun (shapeCast_self _ shapeCasts_S256x1_S256x1) _).trans (congrArg (min _) ((lane_min _ p).trans ?_))
  exact congrArg (fun f => (Finset.univ : Finset (Fin 256)).fold min (⊤ : EReal) f)
    (funext fun q => if_congr (pos_mask tg n hn p q) (dist_tileN X n hn p q) Spec.top_word)

-- A fold that restarts at every sixteenth point and adds one block of 256 columns a point holds, after a row block's last point, the sum over all columns.
theorem out_sum {A : Type} {N : ℕ} (init : A) (step : (n : ℕ) → n < N → A → A) (acc : (n : ℕ) → n < N → A)
    (h0 : ∀ hn, acc 0 hn = step 0 hn init)
    (hs : ∀ n hn, acc (n + 1) hn
      = if (n + 1) % 16 = 0 then step (n + 1) hn init else step (n + 1) hn (acc n (Nat.lt_of_succ_lt hn)))
    (sel : A → Vec Ideal S256x1 .f32) (g : Fin 4096 → Fin 4096 → EReal)
    (hinit : ∀ p : Fin 256, sel init (ix2 p (0 : Fin 1)) = 0)
    (hstep : ∀ (n : ℕ) (hn : n < N) (a : A) (p : Fin 256),
      sel (step n hn a) (ix2 p (0 : Fin 1))
        = sel a (ix2 p (0 : Fin 1)) + ∑ q : Fin 256, g (rowN (n / 16) p) (rowN (n % 16) q))
    (r : Fin 4096) (hr : 16 * (r.val / 256) + 15 < N) :
    sel (acc (16 * (r.val / 256) + 15) hr) (ix2 (⟨r.val % 256, Nat.mod_lt _ (by decide)⟩ : Fin 256) (0 : Fin 1))
      = ∑ s : Fin 4096, g r s := by
  have inv : ∀ (n : ℕ) (hn : n < N) (p : Fin 256), sel (acc n hn) (ix2 p (0 : Fin 1))
      = ∑ jj ∈ Finset.range (n % 16 + 1), ∑ q : Fin 256, g (rowN (n / 16) p) (rowN jj q) := by
    intro n hn p
    induction n with
    | zero =>
      rw [h0, hstep, hinit, zero_add]
      simp
    | succ n ih =>
      rw [hs]
      by_cases h : (n + 1) % 16 = 0
      · rw [if_pos h, hstep, hinit, zero_add, h]
        simp
      · rw [if_neg h, hstep, ih, show (n + 1) / 16 = n / 16 by omega, show (n + 1) % 16 = n % 16 + 1 by omega]
        exact (Finset.sum_range_succ _ _).symm
  refine (inv _ hr _).trans ?_
  rw [show (16 * (r.val / 256) + 15) % 16 = 15 by omega, show (16 * (r.val / 256) + 15) / 16 = r.val / 256 by omega, last_row]
  exact sum_blocks (g r)

theorem out0_sum (sel : Acc0 Ideal → Vec Ideal S256x1 .f32) (g : Fin 4096 → Fin 4096 → EReal)
    (hinit : ∀ p : Fin 256, sel init0 (ix2 p (0 : Fin 1)) = 0)
    (hstep : ∀ (n : ℕ) (hn : n < grid0.N) (acc : Acc0 Ideal) (p : Fin 256),
      sel (step0 X (colT tg) (rowT tg) n hn acc) (ix2 p (0 : Fin 1))
        = sel acc (ix2 p (0 : Fin 1)) + ∑ q : Fin 256, g (rowN (n / 16) p) (rowN (n % 16) q))
    (r : Fin 4096) : out0 X (colT tg) (rowT tg) sel (ix2 r (0 : Fin 1)) = ∑ s : Fin 4096, g r s :=
  out_sum init0 (step0 X (colT tg) (rowT tg)) (accAt0 X (colT tg) (rowT tg)) (fun _ => rfl) (fun _ _ => by rw [accAt0])
    sel g hinit hstep r _

theorem min_invariant (n : ℕ) (hn : n < grid0.N) (p : Fin 256) (c : EReal) :
    c ≤ (accAt0 X (colT tg) (rowT tg) n hn).a0 (ix2 p (0 : Fin 1))
      ↔ ∀ jj, jj < n % 16 + 1 → ∀ q : Fin 256,
          c ≤ if Spec.pos tg (rowN (n / 16) p) (rowN jj q) then Spec.dist X (rowN (n / 16) p) (rowN jj q) else ⊤ := by
  induction n with
  | zero =>
    rw [accAt0, step0_a0]
    show c ≤ min (k0_pay3 (F := Ideal) (ix2 p (0 : Fin 1))) _ ↔ _
    rw [pay3_apply, le_min_iff, Finset.le_fold_min]
    simp
  | succ n ih =>
    rw [accAt0]
    by_cases h : (n + 1) % 16 = 0
    · rw [if_pos h, step0_a0]
      show c ≤ min (k0_pay3 (F := Ideal) (ix2 p (0 : Fin 1))) _ ↔ _
      rw [pay3_apply, le_min_iff, Finset.le_fold_min, h]
      simp
    · have h1 : (n + 1) / 16 = n / 16 := by omega
      have h2 : (n + 1) % 16 = n % 16 + 1 := by omega
      rw [if_neg h, step0_a0, le_min_iff, Finset.le_fold_min, ih, h1, h2]
      constructor
      · rintro ⟨H1, _, H2⟩ jj hjj q
        rcases Nat.lt_succ_iff_lt_or_eq.mp hjj with h' | h'
        · exact H1 jj h' q
        · subst h'; exact H2 q (Finset.mem_univ _)
      · intro H
        exact ⟨fun jj hjj q => H jj (Nat.lt_succ_of_lt hjj) q, le_top, fun q _ => H _ (Nat.lt_succ_self _) q⟩

end Pass1

open Pass1

theorem out0_posMin (r : Fin 4096) : out0 X (colT tg) (rowT tg) (fun a => a.a0) (ix2 r (0 : Fin 1)) = Spec.posMin X tg r := by
  have hr := r.isLt
  refine eq_of_forall_le_iff fun c => ?_
  refine (min_invariant X tg _ (lt_of_lt_of_eq (last_lt hr) (by decide)) ⟨r.val % 256, Nat.mod_lt _ (by decide)⟩ c).trans ?_
  rw [show (16 * (r.val / 256) + 15) % 16 = 15 by omega, show (16 * (r.val / 256) + 15) / 16 = r.val / 256 by omega, last_row]
  unfold Spec.posMin
  rw [Finset.le_fold_min]
  constructor
  · intro H
    refine ⟨le_top, fun s _ => ?_⟩
    have := H (s.val / 256) (by have := s.isLt; omega) ⟨s.val % 256, Nat.mod_lt _ (by decide)⟩
    rwa [last_row] at this
  · intro H jj _ q
    exact H.2 _ (Finset.mem_univ _)

theorem out0_posSum (r : Fin 4096) : out0 X (colT tg) (rowT tg) (fun a => a.a1) (ix2 r (0 : Fin 1)) = Spec.posSum X tg r :=
  out0_sum X tg (fun a => a.a1) (fun r s => if Spec.pos tg r s then Spec.dist X r s else 0)
    (fun p => by show k0_pay4 (F := Ideal) (ix2 p (0 : Fin 1)) = 0; unfold k0_pay4; exact zero_col _)
    (fun n hn acc p => by
      show k0_pay14 (F := Ideal) _ _ _ _ (ix2 p (0 : Fin 1)) = _
      unfold k0_pay14
      exact add_col _ _ p _ fun q =>
        if_congr (pos_mask tg n hn p q) (dist_tileN X n hn p q) Ideal.ofBits_zero_f32) r
theorem out0_posCnt (r : Fin 4096) : out0 X (colT tg) (rowT tg) (fun a => a.a2) (ix2 r (0 : Fin 1)) = Spec.posCnt tg r :=
  out0_sum X tg (fun a => a.a2) (fun r s => if Spec.pos tg r s then (1 : EReal) else 0)
    (fun p => by show k0_pay5 (F := Ideal) (ix2 p (0 : Fin 1)) = 0; unfold k0_pay5; exact zero_col _)
    (fun n hn acc p => by
      show k0_pay15 (F := Ideal) _ _ _ (ix2 p (0 : Fin 1)) = _
      unfold k0_pay15
      exact add_col _ _ p _ fun q =>
        (bit_to_real _).trans (if_congr (pos_mask tg n hn p q) rfl rfl)) r
theorem out0_negSum (r : Fin 4096) : out0 X (colT tg) (rowT tg) (fun a => a.a3) (ix2 r (0 : Fin 1)) = Spec.negSum X tg r :=
  out0_sum X tg (fun a => a.a3) (fun r s => if ¬ Spec.same tg r s then Spec.dist X r s else 0)
    (fun p => by show k0_pay6 (F := Ideal) (ix2 p (0 : Fin 1)) = 0; unfold k0_pay6; exact zero_col _)
    (fun n hn acc p => by
      show k0_pay1 (F := Ideal) _ (k0_pay16 _ _) (ix2 p (0 : Fin 1)) = _
      unfold k0_pay1 k0_pay16
      exact add_col _ _ p _ fun q =>
        if_congr (neg_mask tg n hn p q) (dist_tileN X n hn p q) Ideal.ofBits_zero_f32) r
theorem out0_negCnt (r : Fin 4096) : out0 X (colT tg) (rowT tg) (fun a => a.a4) (ix2 r (0 : Fin 1)) = Spec.negCnt tg r :=
  out0_sum X tg (fun a => a.a4) (fun r s => if ¬ Spec.same tg r s then (1 : EReal) else 0)
    (fun p => by show k0_pay7 (F := Ideal) (ix2 p (0 : Fin 1)) = 0; unfold k0_pay7; exact zero_col _)
    (fun n hn acc p => by
      show k0_pay2 (F := Ideal) (k0_pay12 _) _ (ix2 p (0 : Fin 1)) = _
      unfold k0_pay2
      exact add_col _ _ p _ fun q =>
        (bit_to_real _).trans (if_congr (neg_mask tg n hn p q) rfl rfl)) r

end Cert.KernelIdeal.Hand

end
-- ==== Proof.KI.AccMath1.lean ====
import proofs.«105460_j37082747634119_1_alg».proof.Proof.KI.AccMath0

noncomputable section

namespace Cert.KernelIdeal.Hand

open Idealize.ShloMosaic Idealize.ShloMosaic.ValueIdx
open Cert.KernelIdeal Cert.KernelIdeal.Gen
open Pass1

variable (X : Vec Ideal S4096x512 .f32) (tg : Vec Ideal S4096 .i32)

theorem bitAnd_iff (a b : BitVec 1) : IntOp.andi a b = 1#1 ↔ (a = 1#1 ∧ b = 1#1) := by
  rcases BitVec.eq_zero_or_eq_one a with rfl | rfl <;> rcases BitVec.eq_zero_or_eq_one b with rfl | rfl <;> decide

-- Both mask bits of a tile are set exactly on the columns of another class inside the window under pm.
theorem hard_mask (pm : Vec Ideal S4096x1 .f32) (n : ℕ) (hn : n < grid1.N) (p q : Fin 256) :
    IntOp.andi
        (k1_pay7 (F := Ideal) (rowsC (colT tg) (n / 16) (div16_lt (lt_of_lt_of_eq hn (by decide))))
          (colsR (rowT tg) (n % 16) (mod16_lt n)) (ix2 p q))
        (k1_pay8 (F := Ideal) (rowsX X (n / 16) (div16_lt (lt_of_lt_of_eq hn (by decide)))) (rowsX X (n % 16) (mod16_lt n))
          (rowsC pm (n / 16) (div16_lt (lt_of_lt_of_eq hn (by decide)))) (ix2 p q)) = 1#1
      ↔ ¬ Spec.same tg (rowN (n / 16) p) (rowN (n % 16) q)
        ∧ Spec.dist X (rowN (n / 16) p) (rowN (n % 16) q) < pm (ix2 (rowN (n / 16) p) (0 : Fin 1)) + Spec.margin := by
  rw [bitAnd_iff, other_tile1 tg (n / 16) (n % 16) _ _ p q, window_tile1 X pm (n / 16) (n % 16) _ _ p q, rowOf_eq, rowOf_eq]
  by_cases h1 : Spec.same tg (rowN (n / 16) p) (rowN (n % 16) q) <;>
    by_cases h2 : Spec.dist X (rowN (n / 16) p) (rowN (n % 16) q) < pm (ix2 (rowN (n / 16) p) (0 : Fin 1)) + Spec.margin <;>
    simp [h1, h2]

abbrev pmOf : Vec Ideal S4096x1 .f32 := out0 X (colT tg) (rowT tg) (fun a => a.a0)

-- Under pass 1's nearest-positive distances the window is the specification's.
theorem hard_iff (r s : Fin 4096) :
    (¬ Spec.same tg r s ∧ Spec.dist X r s < pmOf X tg (ix2 r (0 : Fin 1)) + Spec.margin) ↔ Spec.hard X tg r s := by
  rw [show pmOf X tg (ix2 r (0 : Fin 1)) = Spec.posMin X tg r from out0_posMin X tg r]
  exact Iff.rfl

theorem out1_hardCnt (r : Fin 4096) : out1 X (colT tg) (rowT tg) (pmOf X tg) (fun a => a.a0) (ix2 r (0 : Fin 1)) = Spec.hardCnt X tg r :=
  (out_sum init1 (step1 X (colT tg) (rowT tg) (pmOf X tg)) (accAt1 X (colT tg) (rowT tg) (pmOf X tg)) (fun _ => rfl)
    (fun _ _ => by rw [accAt1]) (fun a => a.a0)
    (fun r s => if ¬ Spec.same tg r s ∧ Spec.dist X r s < pmOf X tg (ix2 r (0 : Fin 1)) + Spec.margin then (1 : EReal) else 0)
    (fun p => by show k1_pay4 (F := Ideal) (ix2 p (0 : Fin 1)) = 0; unfold k1_pay4; exact zero_col _)
    (fun n hn acc p => by
      show k1_pay2 (F := Ideal) _ _ _ (ix2 p (0 : Fin 1)) = _
      unfold k1_pay2 k1_pay1
      exact add_col _ _ p _ fun q =>
        (bit_to_real _).trans (if_congr (hard_mask X tg (pmOf X tg) n hn p q) rfl rfl)) r _).trans
    (Finset.sum_congr rfl fun s _ => if_congr (hard_iff X tg r s) rfl rfl)

theorem out1_hardSum (r : Fin 4096) : out1 X (colT tg) (rowT tg) (pmOf X tg) (fun a => a.a1) (ix2 r (0 : Fin 1)) = Spec.hardSum X tg r :=
  (out_sum init1 (step1 X (colT tg) (rowT tg) (pmOf X tg)) (accAt1 X (colT tg) (rowT tg) (pmOf X tg)) (fun _ => rfl)
    (fun _ _ => by rw [accAt1]) (fun a => a.a1)
    (fun r s => if ¬ Spec.same tg r s ∧ Spec.dist X r s < pmOf X tg (ix2 r (0 : Fin 1)) + Spec.margin then Spec.dist X r s else 0)
    (fun p => by show k1_pay5 (F := Ideal) (ix2 p (0 : Fin 1)) = 0; unfold k1_pay5; exact zero_col _)
    (fun n hn acc p => by
      show k1_pay3 (F := Ideal) _ _ _ _ (ix2 p (0 : Fin 1)) = _
      unfold k1_pay3 k1_pay1
      exact add_col _ _ p _ fun q =>
        if_congr (hard_mask X tg (pmOf X tg) n hn p q) (dist_tileN X n (lt_of_lt_of_eq hn (by decide)) p q)
          Ideal.ofBits_zero_f32) r _).trans
    (Finset.sum_congr rfl fun s _ => if_congr (hard_iff X tg r s) rfl rfl)

end Cert.KernelIdeal.Hand

end
-- ==== Proof.KI.KernelValue.lean ====
import proofs.«105460_j37082747634119_1_alg».proof.Proof.KI.Frame
import proofs.«105460_j37082747634119_1_alg».proof.Proof.KI.Value0
import proofs.«105460_j37082747634119_1_alg».proof.Proof.KI.Value1
import proofs.«105460_j37082747634119_1_alg».proof.Proof.KI.FinalMath
import proofs.«105460_j37082747634119_1_alg».proof.Proof.KI.AccMath1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

section Congr
variable {G : FTy → Type} [FloatOps G]

theorem out0_congr {x x' : Vec G S4096x512 .f32} {tc tc' : Vec G S4096x1 .i32} {tr tr' : Vec G S1x4096 .i32}
    (h1 : x = x') (h2 : tc = tc') (h3 : tr = tr') (sel : Acc0 G → Vec G S256x1 .f32) :
    out0 x tc tr sel = out0 x' tc' tr' sel := by
  subst h1 h2 h3; rfl

theorem out1_congr {x x' : Vec G S4096x512 .f32} {tc tc' : Vec G S4096x1 .i32} {tr tr' : Vec G S1x4096 .i32}
    {pm pm' : Vec G S4096x1 .f32} (h1 : x = x') (h2 : tc = tc') (h3 : tr = tr') (h4 : pm = pm')
    (sel : Acc1 G → Vec G S256x1 .f32) :
    out1 x tc tr pm sel = out1 x' tc' tr' pm' sel := by
  subst h1 h2 h3 h4; rfl

end Congr

section KernelValue
variable (m : (ℓ : Loc nD τ sig) → Buf (Elt Ideal) ℓ) (c : Dev nD)

abbrev argX : Vec Ideal S4096x512 .f32 := m ((c : Thread nD τ).loc main_arg0)
abbrev argT : Vec Ideal S4096 .i32 := m ((c : Thread nD τ).loc main_arg1)

theorem v1_arg0 : (V1 m c main_arg0 : Vec Ideal S4096x512 .f32) = argX m c := pre_arg0 (W0 m c)
theorem v1_v0 : (V1 m c main_v0 : Vec Ideal S4096x1 .i32) = colT (argT m c) := pre_v0 (W0 m c)
theorem v1_v1 : (V1 m c main_v1 : Vec Ideal S1x4096 .i32) = rowT (argT m c) := pre_v1 (W0 m c)

theorem w2_v2_0 : (W2 m c main_v2_0 : Vec Ideal S4096x1 .f32) = out0 (argX m c) (colT (argT m c)) (rowT (argT m c)) (fun a => a.a0) :=
  (W2_v2_0 m c).trans <| (final0_4 (V1 m) c).trans <| out0_congr (v1_arg0 m c) (v1_v0 m c) (v1_v1 m c) _
theorem w2_v2_1 : (W2 m c main_v2_1 : Vec Ideal S4096x1 .f32) = out0 (argX m c) (colT (argT m c)) (rowT (argT m c)) (fun a => a.a1) :=
  (W2_v2_1 m c).trans <| (final0_5 (V1 m) c).trans <| out0_congr (v1_arg0 m c) (v1_v0 m c) (v1_v1 m c) _
theorem w2_v2_2 : (W2 m c main_v2_2 : Vec Ideal S4096x1 .f32) = out0 (argX m c) (colT (argT m c)) (rowT (argT m c)) (fun a => a.a2) :=
  (W2_v2_2 m c).trans <| (final0_6 (V1 m) c).trans <| out0_congr (v1_arg0 m c) (v1_v0 m c) (v1_v1 m c) _
theorem w2_v2_3 : (W2 m c main_v2_3 : Vec Ideal S4096x1 .f32) = out0 (argX m c) (colT (argT m c)) (rowT (argT m c)) (fun a => a.a3) :=
  (W2_v2_3 m c).trans <| (final0_7 (V1 m) c).trans <| out0_congr (v1_arg0 m c) (v1_v0 m c) (v1_v1 m c) _
theorem w2_v2_4 : (W2 m c main_v2_4 : Vec Ideal S4096x1 .f32) = out0 (argX m c) (colT (argT m c)) (rowT (argT m c)) (fun a => a.a4) :=
  (W2_v2_4 m c).trans <| (final0_8 (V1 m) c).trans <| out0_congr (v1_arg0 m c) (v1_v0 m c) (v1_v1 m c) _

theorem v2_arg0 : (V2 m c main_arg0 : Vec Ideal S4096x512 .f32) = argX m c := (W2_of m c main_arg0 (by decide)).trans (v1_arg0 m c)
theorem v2_v0 : (V2 m c main_v0 : Vec Ideal S4096x1 .i32) = colT (argT m c) := (W2_of m c main_v0 (by decide)).trans (v1_v0 m c)
theorem v2_v1 : (V2 m c main_v1 : Vec Ideal S1x4096 .i32) = rowT (argT m c) := (W2_of m c main_v1 (by decide)).trans (v1_v1 m c)
theorem v2_v2_0 : (V2 m c main_v2_0 : Vec Ideal S4096x1 .f32) = pmOf (argX m c) (argT m c) := w2_v2_0 m c

theorem w3_v3_0 : (W3 m c main_v3_0 : Vec Ideal S4096x1 .f32)
    = out1 (argX m c) (colT (argT m c)) (rowT (argT m c)) (pmOf (argX m c) (argT m c)) (fun a => a.a0) :=
  (W3_v3_0 m c).trans <| (final1_5 (V2 m) c).trans <| out1_congr (v2_arg0 m c) (v2_v0 m c) (v2_v1 m c) (v2_v2_0 m c) _
theorem w3_v3_1 : (W3 m c main_v3_1 : Vec Ideal S4096x1 .f32)
    = out1 (argX m c) (colT (argT m c)) (rowT (argT m c)) (pmOf (argX m c) (argT m c)) (fun a => a.a1) :=
  (W3_v3_1 m c).trans <| (final1_6 (V2 m) c).trans <| out1_congr (v2_arg0 m c) (v2_v0 m c) (v2_v1 m c) (v2_v2_0 m c) _

theorem w3_v2_0 : (W3 m c main_v2_0 : Vec Ideal S4096x1 .f32) = out0 (argX m c) (colT (argT m c)) (rowT (argT m c)) (fun a => a.a0) :=
  (W3_of m c main_v2_0 (by decide)).trans (w2_v2_0 m c)
theorem w3_v2_1 : (W3 m c main_v2_1 : Vec Ideal S4096x1 .f32) = out0 (argX m c) (colT (argT m c)) (rowT (argT m c)) (fun a => a.a1) :=
  (W3_of m c main_v2_1 (by decide)).trans (w2_v2_1 m c)
theorem w3_v2_2 : (W3 m c main_v2_2 : Vec Ideal S4096x1 .f32) = out0 (argX m c) (colT (argT m c)) (rowT (argT m c)) (fun a => a.a2) :=
  (W3_of m c main_v2_2 (by decide)).trans (w2_v2_2 m c)
theorem w3_v2_3 : (W3 m c main_v2_3 : Vec Ideal S4096x1 .f32) = out0 (argX m c) (colT (argT m c)) (rowT (argT m c)) (fun a => a.a3) :=
  (W3_of m c main_v2_3 (by decide)).trans (w2_v2_3 m c)
theorem w3_v2_4 : (W3 m c main_v2_4 : Vec Ideal S4096x1 .f32) = out0 (argX m c) (colT (argT m c)) (rowT (argT m c)) (fun a => a.a4) :=
  (W3_of m c main_v2_4 (by decide)).trans (w2_v2_4 m c)

theorem kernel_v21 : (W6 m c (Proc.devRef .tc main_v21) : Vec Ideal S_ .f32) = fun _ => Spec.loss (argX m c) (argT m c) := by
  refine (tail_v21 (W3 m c)).trans ?_
  refine resLoss_spec (argX m c) (argT m c) _ _ _ (fun r => ?_) (fun r => ?_) (fun r => ?_)
  · exact (congrFun (w3_v2_0 m c) (ix2 r (0 : Fin 1))).trans (out0_posMin _ _ r)
  · exact (congrFun (w3_v3_0 m c) (ix2 r (0 : Fin 1))).trans (out1_hardCnt _ _ r)
  · exact (congrFun (w3_v3_1 m c) (ix2 r (0 : Fin 1))).trans (out1_hardSum _ _ r)

theorem kernel_v25 : (W6 m c (Proc.devRef .tc main_v25) : Vec Ideal S_ .f32) = fun _ => Spec.prec (argX m c) (argT m c) := by
  refine (tail_v25 (W3 m c)).trans ?_
  refine resPrec_spec (argX m c) (argT m c) _ (fun r => ?_)
  exact (congrFun (w3_v3_0 m c) (ix2 r (0 : Fin 1))).trans (out1_hardCnt _ _ r)

theorem kernel_v28 : (W6 m c (Proc.devRef .tc main_v28) : Vec Ideal S_ .f32) = fun _ => Spec.posMean (argX m c) (argT m c) := by
  refine (tail_v28 (W3 m c)).trans ?_
  refine resRatio_pos (argX m c) (argT m c) _ _ (fun r => ?_) (fun r => ?_)
  · exact (congrFun (w3_v2_1 m c) (ix2 r (0 : Fin 1))).trans (out0_posSum _ _ r)
  · exact (congrFun (w3_v2_2 m c) (ix2 r (0 : Fin 1))).trans (out0_posCnt _ _ r)

theorem kernel_v31 : (W6 m c (Proc.devRef .tc main_v31) : Vec Ideal S_ .f32) = fun _ => Spec.negMean (argX m c) (argT m c) := by
  refine (tail_v31 (W3 m c)).trans ?_
  refine resRatio_neg (argX m c) (argT m c) _ _ (fun r => ?_) (fun r => ?_)
  · exact (congrFun (w3_v2_3 m c) (ix2 r (0 : Fin 1))).trans (out0_negSum _ _ r)
  · exact (congrFun (w3_v2_4 m c) (ix2 r (0 : Fin 1))).trans (out0_negCnt _ _ r)

theorem kernel_arg0 : W6 m c (Proc.devRef .tc main_arg0) = m ((c : Thread nD τ).loc main_arg0) := W6_main_arg0 m c
theorem kernel_arg1 : W6 m c (Proc.devRef .tc main_arg1) = m ((c : Thread nD τ).loc main_arg1) := W6_main_arg1 m c

end KernelValue

end Cert.KernelIdeal.Hand

end
-- ==== Proof.RefSide.lean ====
import proofs.«105460_j37082747634119_1_alg».proof.Proof.RefReadEq

noncomputable section

namespace Cert.ReferenceIdeal.RefSide

open Cert.ReferenceIdeal Cert.ReferenceIdeal.Gen Idealize.ShloMosaic Idealize.ShloMosaic.TcCoe Idealize.SL.Sem

theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v50)
        = Cert.ReferenceIdeal.ReadP.val_main_v50 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v55)
        = Cert.ReferenceIdeal.ReadP.val_main_v55 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v61)
        = Cert.ReferenceIdeal.ReadP.val_main_v61 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v67)
        = Cert.ReferenceIdeal.ReadP.val_main_v67 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0)
        = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m' ((c.tc : Thread Cert.ReferenceIdeal.nD Cert.ReferenceIdeal.τ).loc Cert.ReferenceIdeal.main_arg1)) :=
  (θ_run (Cert.ReferenceIdeal.defs (F := Ideal)) _ _).mono
    (fun _ h c =>
      ⟨(h c).1.trans (Cert.ReferenceIdeal.ReadP.val_main_v50_eq (F := Ideal) m' c),
       (h c).2.1.trans (Cert.ReferenceIdeal.ReadP.val_main_v55_eq (F := Ideal) m' c),
       (h c).2.2.1.trans (Cert.ReferenceIdeal.ReadP.val_main_v61_eq (F := Ideal) m' c),
       (h c).2.2.2.1.trans (Cert.ReferenceIdeal.ReadP.val_main_v67_eq (F := Ideal) m' c),
       (h c).2.2.2.2.1, (h c).2.2.2.2.2⟩)
    (Cert.ReferenceIdeal.ValueP.run (F := Ideal) m' ρ')

end Cert.ReferenceIdeal.RefSide

end
-- ==== Proof.RefStages.lean ====
import proofs.«105460_j37082747634119_1_alg».proof.Proof.RefRead
import proofs.«105460_j37082747634119_1_alg».proof.Proof.Spec
import Idealize.ShloMosaic.PureOps.Reduce
import Idealize.ShloMosaic.PureOps.Ideal.Laws
import Idealize.ShloMosaic.Lib.ValueIdx
import Idealize.ShloMosaic.Lib.IndicatorCount
import Mathlib.Data.Finset.Fold
import Mathlib.Data.Finset.Card

noncomputable section

namespace Cert.ReferenceIdeal.RefStages

open Cert.ReferenceIdeal Cert.ReferenceIdeal.Gen Idealize.ShloMosaic Idealize.ShloMosaic.ValueIdx

variable (X : Vec Ideal S4096x512 .f32) (tg : Vec Ideal S4096 .i32)

instance : Std.Commutative (IntOp.addi (w := 32)) := ⟨fun x y => BitVec.add_comm x y⟩
instance : Std.Associative (IntOp.addi (w := 32)) := ⟨fun x y z => BitVec.add_assoc x y z⟩

theorem idx_rowSq (r s : Fin 4096) (k : Fin 512) :
    ReadP.idx_main_v1 (ReadP.idx_main_v2 (ReadP.idx_main_v4 (ix2 r s))) k = ix2 r k := by
  funext a; match a with | ⟨0, _⟩ => rfl | ⟨1, _⟩ => rfl

theorem idx_colSq (r s : Fin 4096) (k : Fin 512) :
    ReadP.idx_main_v1 (ReadP.idx_main_v3 (ReadP.idx_main_v5 (ix2 r s))) k = ix2 s k := by
  funext a; match a with | ⟨0, _⟩ => rfl | ⟨1, _⟩ => rfl

theorem idx_dotL (r s : Fin 4096) (k : Fin 512) : ReadP.lidx_main_v8 (ix2 r s) k = ix2 r k := by
  funext a; match a with | ⟨0, _⟩ => rfl | ⟨1, _⟩ => rfl

theorem idx_dotR (r s : Fin 4096) (k : Fin 512) :
    ReadP.idx_main_v7 (ReadP.ridx_main_v8 (ix2 r s) k) = ix2 s k := by
  funext a; match a with | ⟨0, _⟩ => rfl | ⟨1, _⟩ => rfl

theorem ref_dist (r s : Fin 4096) :
    ReadP.val_main_v13 (F := Ideal) X (ix2 r s) = Spec.dist X r s := by
  rw [ReadP.val_main_v13_apply, ReadP.val_main_v12_apply, ReadP.val_main_call0_v1_apply, ReadP.val_main_call0_v0_apply,
    ReadP.val_main_cst_1_apply, ReadP.val_main_v11_apply, ReadP.val_main_v6_apply, ReadP.val_main_v4_apply,
    ReadP.val_main_v2_apply, ReadP.val_main_v1_apply, ReadP.val_main_v5_apply, ReadP.val_main_v3_apply,
    ReadP.val_main_v1_apply, ReadP.val_main_v10_apply, ReadP.val_main_v9_apply, ReadP.val_main_cst_0_apply,
    ReadP.val_main_v8_apply, ReadP.val_main_cst_apply]
  simp only [Ideal.hostUnary_sqrt_def, Ideal.maximumf_def, Ideal.subf_def, Ideal.addf_def, Ideal.mulf_def, Ideal.ofBits_def,
    Ideal.ofBits_zero_f32, zero_add, ReadP.val_main_v0_apply, ReadP.val_main_v7_apply, idx_rowSq, idx_colSq, idx_dotL, idx_dotR]
  rfl

theorem idx_rowLab (r s : Fin 4096) : ReadP.idx_main_v14 (ReadP.idx_main_v16 (ix2 r s)) = ix1 r := by
  funext a; match a with | ⟨0, _⟩ => rfl

theorem idx_colLab (r s : Fin 4096) : ReadP.idx_main_v15 (ReadP.idx_main_v17 (ix2 r s)) = ix1 s := by
  funext a; match a with | ⟨0, _⟩ => rfl

theorem ref_same (r s : Fin 4096) :
    ReadP.val_main_v18 (F := Ideal) tg (ix2 r s) = if Spec.same tg r s then 1#1 else 0#1 := by
  rw [ReadP.val_main_v18_apply, ReadP.val_main_v16_apply, ReadP.val_main_v14_apply, ReadP.val_main_v17_apply,
    ReadP.val_main_v15_apply, idx_rowLab, idx_colLab, Spec.cmpi_eq_ite]
  exact if_congr Iff.rfl rfl rfl

theorem ref_eye (r s : Fin 4096) :
    ReadP.val_main_v23 (F := Ideal) (ix2 r s) = if r = s then 1#1 else 0#1 := by
  rw [ReadP.val_main_v23_apply, ReadP.val_main_v22_apply, ReadP.val_main_v19_apply, ReadP.val_main_v21_apply,
    ReadP.val_main_c_apply, ReadP.val_main_v20_apply, Spec.cmpi_eq_ite]
  show (if IntOp.addi (BitVec.ofNat 32 r.val) 0#32 = BitVec.ofNat 32 s.val then 1#1 else 0#1) = _
  have e : IntOp.addi (BitVec.ofNat 32 r.val) 0#32 = BitVec.ofNat 32 r.val := BitVec.add_zero _
  rw [e]
  exact if_congr ((Spec.ofNat_inj_small r.isLt s.isLt).trans Fin.val_inj) rfl rfl

theorem ref_pos (r s : Fin 4096) :
    ReadP.val_main_v25 (F := Ideal) tg (ix2 r s) = if Spec.pos tg r s then 1#1 else 0#1 := by
  rw [ReadP.val_main_v25_apply, ReadP.val_main_v24_apply, ref_same, ref_eye]
  by_cases h1 : Spec.same tg r s <;> by_cases h2 : r = s <;> simp [Spec.pos, h1, h2, IntOp.andi]

theorem ref_neg (r s : Fin 4096) :
    ReadP.val_main_v26 (F := Ideal) tg (ix2 r s) = if Spec.same tg r s then 0#1 else 1#1 := by
  rw [ReadP.val_main_v26_apply, ref_same]
  by_cases h1 : Spec.same tg r s <;> simp [h1]

theorem reduces_cols : S4096x4096.Reduces [1] S4096 := by decide

theorem lift_cols (r : Fin 4096) (k : Fin (S4096x4096.size 1)) :
    reduces_cols.lift (ix1 r) k = ix2 r (⟨k.val, k.isLt⟩ : Fin 4096) := by
  funext c; apply Fin.ext
  match c with
  | ⟨0, _⟩ => rfl
  | ⟨1, _⟩ => rfl

theorem ref_posDist (r s : Fin 4096) :
    ReadP.val_main_v27 (F := Ideal) X tg (ix2 r s) = if Spec.pos tg r s then Spec.dist X r s else ⊤ := by
  rw [ReadP.val_main_v27_apply, ref_pos, ref_dist, ReadP.val_main_call1_v1_apply, ReadP.val_main_call1_v0_apply,
    ReadP.val_main_cst_2_apply, Ideal.ofBits_def, Spec.top_word]
  by_cases h : Spec.pos tg r s <;> simp [h, Scalar.select]

theorem ref_posMin (r : Fin 4096) :
    ReadP.val_main_v28 (F := Ideal) X tg (ix1 r) = Spec.posMin X tg r := by
  unfold ReadP.val_main_v28
  rw [Host.reduce_eq_fold_single FloatOps.minimumf _ _ reducesTo_S4096x4096_S4096_d1 reduces_cols h_S_]
  rw [ReadP.val_main_cst_3_apply, Ideal.ofBits_def, Spec.top_word]
  have hf : (ReadP.val_main_v27 (F := Ideal) X tg ∘ reduces_cols.lift (ix1 r))
      = fun s : Fin 4096 => if Spec.pos tg r s then Spec.dist X r s else ⊤ :=
    funext fun k => by
      show ReadP.val_main_v27 (F := Ideal) X tg (reduces_cols.lift (ix1 r) k) = _
      rw [lift_cols]; exact ref_posDist X tg r _
  unfold Spec.posMin
  exact congrArg (fun f => Finset.fold min ⊤ f (Finset.univ : Finset (Fin 4096))) hf

theorem idx_rowThr (r s : Fin 4096) : ReadP.idx_main_v29 (ReadP.idx_main_v32 (ix2 r s)) = ix1 r := by
  funext a; match a with | ⟨0, _⟩ => rfl

theorem ref_hard (r s : Fin 4096) :
    ReadP.val_main_v34 (F := Ideal) X tg (ix2 r s) = if Spec.hard X tg r s then 1#1 else 0#1 := by
  rw [ReadP.val_main_v34_apply, ref_neg, ReadP.val_main_v33_apply, ref_dist, ReadP.val_main_v32_apply,
    ReadP.val_main_v31_apply, ReadP.val_main_v29_apply, idx_rowThr, ref_posMin, ReadP.val_main_v30_apply,
    ReadP.val_main_cst_4_apply]
  show IntOp.andi _ (Ideal.cmp .olt (Spec.dist X r s) (Spec.posMin X tg r + Spec.margin)) = _
  rw [Spec.cmp_olt]
  by_cases h1 : Spec.same tg r s <;> by_cases h2 : Spec.dist X r s < Spec.posMin X tg r + Spec.margin <;>
    simp [Spec.hard, h1, h2, IntOp.andi]

theorem idx_rowCol (r : Fin 4096) (k : Fin 4096) : ReadP.idx_main_v38 (ix1 r) k = ix2 r k := by
  funext a; match a with | ⟨0, _⟩ => rfl | ⟨1, _⟩ => rfl

theorem ref_hardSum (r : Fin 4096) :
    ReadP.val_main_v38 (F := Ideal) X tg (ix1 r) = Spec.hardSum X tg r := by
  rw [ReadP.val_main_v38_apply, ReadP.val_main_cst_7_apply, Ideal.ofBits_def, Ideal.ofBits_zero_f32, zero_add]
  unfold Spec.hardSum
  refine Finset.sum_congr rfl fun k _ => ?_
  rw [idx_rowCol, ReadP.val_main_v37_apply, ref_hard, ref_dist, ReadP.val_main_call2_v1_apply,
    ReadP.val_main_call2_v0_apply, ReadP.val_main_cst_6_apply, Ideal.ofBits_def, Ideal.ofBits_zero_f32]
  by_cases h : Spec.hard X tg r k <;> simp [h, Scalar.select]

-- The row's count is the fold of the widened mask bits, and a mask bit is set exactly on the hard negatives.
theorem ref_hardCntInt_card (r : Fin 4096) :
    ReadP.val_main_v36 (F := Ideal) X tg (ix1 r)
      = BitVec.ofNat 32 ((Finset.univ : Finset (Fin 4096)).filter fun s => Spec.hard X tg r s).card := by
  unfold ReadP.val_main_v36
  rw [Host.reduce_eq_fold_single IntOp.addi _ _ reducesTo_S4096x4096_S4096_d1 reduces_cols h_S_]
  rw [ReadP.val_main_c_5_apply]
  have hf : (ReadP.val_main_v35 (F := Ideal) X tg ∘ reduces_cols.lift (ix1 r))
      = fun s : Fin 4096 => (ReadP.val_main_v34 (F := Ideal) X tg (ix2 r s)).setWidth 32 :=
    funext fun k => by
      show ReadP.val_main_v35 (F := Ideal) X tg (reduces_cols.lift (ix1 r) k) = _
      rw [lift_cols]; rfl
  refine (congrArg (fun f => Finset.fold IntOp.addi 0#32 f (Finset.univ : Finset (Fin 4096))) hf).trans ?_
  refine (IndicatorCount.fold_addi_setWidth_eq_card (fun s : Fin 4096 => ReadP.val_main_v34 (F := Ideal) X tg (ix2 r s))
    Finset.univ).trans (congrArg (fun S : Finset (Fin 4096) => BitVec.ofNat 32 S.card) (Finset.filter_congr fun s _ => ?_))
  rw [ref_hard]
  by_cases h : Spec.hard X tg r s <;> simp [h]

end Cert.ReferenceIdeal.RefStages

end
-- ==== Proof.CountLemmas.lean ====
import Mathlib.Data.EReal.Basic
import Mathlib.Algebra.BigOperators.Group.Finset.Basic
import Mathlib.Algebra.BigOperators.Group.Finset.Piecewise
import Mathlib.Algebra.Order.BigOperators.Group.Finset
import Idealize.ShloMosaic.PureOps.Ideal
import Idealize.ShloMosaic.PureOps.Reduce
import Idealize.ShloMosaic.Lib.IndicatorCount
import Idealize.ShloMosaic.Lib.IdealHost

noncomputable section

namespace Cert.CountLemmas

open Idealize.ShloMosaic

theorem card_filter_eq_sum {ι : Type} (S : Finset ι) (p : ι → Prop) [DecidablePred p] :
    ((((S.filter p).card : ℕ) : ℝ) : EReal) = ∑ i ∈ S, if p i then (1 : EReal) else 0 := by
  classical
  induction S using Finset.induction_on with
  | empty => simp
  | insert a S ha ih =>
    rw [Finset.sum_insert ha, Finset.filter_insert]
    by_cases h : p a
    · rw [if_pos h, if_pos h, Finset.card_insert_of_notMem (fun hm => ha (Finset.mem_filter.1 hm).1)]
      rw [Nat.cast_add, Nat.cast_one, EReal.coe_add, ih, add_comm]; rfl
    · rw [if_neg h, if_neg h, ih, zero_add]

theorem toInt_fold_addi {ι : Type} (b : ι → BitVec 1) (S : Finset ι) (hS : S.card < 2 ^ 31) :
    (S.fold IntOp.addi (0#32) (fun k => (b k).setWidth 32)).toInt = (((S.filter fun k => b k = 1#1).card : ℕ) : ℤ) := by
  rw [IndicatorCount.fold_addi_setWidth_eq_card]
  have hle : (S.filter fun k => b k = 1#1).card ≤ S.card := Finset.card_filter_le _ _
  generalize (S.filter fun k => b k = 1#1).card = n at hle
  have hn : n < 2 ^ 31 := lt_of_le_of_lt hle hS
  have h1 : (BitVec.ofNat 32 n).toNat = n := by
    rw [BitVec.toNat_ofNat]; exact Nat.mod_eq_of_lt (by omega)
  rw [BitVec.toInt_eq_toNat_of_lt (by rw [h1]; omega), h1]

theorem sitofp_fold_addi {ι : Type} (b : ι → BitVec 1) (S : Finset ι) (hS : S.card < 2 ^ 31) :
    FloatOps.sitofp (F := Ideal) .f32 (S.fold IntOp.addi (0#32) (fun k => (b k).setWidth 32))
      = ∑ k ∈ S, if b k = 1#1 then (1 : EReal) else 0 := by
  show (((S.fold IntOp.addi (0#32) (fun k => (b k).setWidth 32)).toInt : ℝ) : EReal) = _
  rw [toInt_fold_addi b S hS, ← card_filter_eq_sum]
  norm_cast

theorem sitofp_reduce_addi {s t u : Shape} {axes : List (Fin s.rank)} (b : s.Idx → BitVec 1) (x : s.Idx → BitVec 32)
    (hx : ∀ i, x i = (b i).setWidth 32) (init : u.Idx → BitVec 32) (h : s.ReducesTo axes t) (hu : 0 < u.numel)
    (hinit : init (Shape.Idx.first hu) = 0#32) (j : t.Idx)
    (hcard : (Finset.univ.filter fun i => h.drop i = j).card < 2 ^ 31) :
    FloatOps.sitofp (F := Ideal) .f32 (Host.reduce IntOp.addi x init h hu j)
      = ∑ i ∈ Finset.univ.filter (fun i => h.drop i = j), if b i = 1#1 then (1 : EReal) else 0 := by
  rw [Host.reduce_eq_fold, hinit, show x = fun i => (b i).setWidth 32 from funext hx]
  exact sitofp_fold_addi b _ hcard

theorem sitofp_maxsi_one (n : BitVec 32) :
    FloatOps.sitofp (F := Ideal) .f32 (IntOp.maxsi n 1#32) = max (FloatOps.sitofp (F := Ideal) .f32 n) 1 := by
  show (((IntOp.maxsi n 1#32).toInt : ℝ) : EReal) = max (((n.toInt : ℝ) : EReal)) 1
  have h1 : (1#32 : BitVec 32).toInt = 1 := by decide
  have e1 : (1 : EReal) = (((1 : ℤ) : ℝ) : EReal) := by norm_cast
  unfold IntOp.maxsi
  by_cases h : (1#32 : BitVec 32).slt n = true
  · rw [if_pos h]
    have h' : (1 : ℤ) < n.toInt := by
      have := h; simp only [BitVec.slt, decide_eq_true_eq, h1] at this; exact this
    rw [e1, max_eq_left]
    exact EReal.coe_le_coe_iff.2 (Int.cast_le.2 h'.le)
  · rw [if_neg h, h1]
    have h' : n.toInt ≤ 1 := by
      have := h; simp only [BitVec.slt, decide_eq_true_eq, h1, not_lt] at this; exact this
    rw [e1, max_eq_right]
    exact EReal.coe_le_coe_iff.2 (Int.cast_le.2 h')

theorem cmpi_sgt_zero (n : BitVec 32) :
    IntOp.cmpi .sgt n 0#32 = 1#1 ↔ (0 : EReal) < FloatOps.sitofp (F := Ideal) .f32 n := by
  show BitVec.ofBool ((0#32 : BitVec 32).slt n) = 1#1 ↔ (0 : EReal) < (((n.toInt : ℝ) : EReal))
  have h0 : (0#32 : BitVec 32).toInt = 0 := by decide
  rw [show (0 : EReal) = (((0 : ℤ) : ℝ) : EReal) by norm_cast, EReal.coe_lt_coe_iff, Int.cast_lt]
  by_cases h : (0 : ℤ) < n.toInt
  · have : (0#32 : BitVec 32).slt n = true := by simp only [BitVec.slt, decide_eq_true_eq, h0]; exact h
    rw [this]; exact ⟨fun _ => h, fun _ => rfl⟩
  · have : (0#32 : BitVec 32).slt n = false := by simp only [BitVec.slt, decide_eq_false_iff_not, h0]; exact h
    rw [this]; exact ⟨fun e => absurd e (by decide), fun e => absurd e h⟩

end Cert.CountLemmas

end
-- ==== Proof.RefMath.lean ====
import proofs.«105460_j37082747634119_1_alg».proof.Proof.RefStages
import proofs.«105460_j37082747634119_1_alg».proof.Proof.CountLemmas
import Idealize.ShloMosaic.PureOps.Ideal.Laws
import Idealize.ShloMosaic.Lib.ValueIdx
import Idealize.ShloMosaic.Lib.ValueIdxRank1
import Idealize.ShloMosaic.Lib.IdealHost

noncomputable section

namespace Cert.ReferenceIdeal.RefMath

open Cert.ReferenceIdeal Cert.ReferenceIdeal.Gen Idealize.ShloMosaic Idealize.ShloMosaic.ValueIdx
open Cert.ReferenceIdeal.RefStages Cert.CountLemmas

variable (X : Vec Ideal S4096x512 .f32) (tg : Vec Ideal S4096 .i32)

theorem idx0_eq (i j : S_.Idx) : i = j := funext fun a => a.elim0

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem card_idx2 : Fintype.card S4096x4096.Idx = 4096 * 4096 := by
  rw [Fintype.card_congr (idxEquiv2 (n0 := 4096) (n1 := 4096)), Fintype.card_prod, Fintype.card_fin]

theorem card_idx1 : Fintype.card S4096.Idx = 4096 := by
  rw [Fintype.card_congr (idxEquiv1 (n := 4096)), Fintype.card_fin]

theorem sitofp_ofNat (n : ℕ) (hn : n < 2 ^ 31) :
    FloatOps.sitofp (F := Ideal) .f32 (BitVec.ofNat 32 n) = (((n : ℕ) : ℝ) : EReal) := by
  show ((((BitVec.ofNat 32 n).toInt : ℤ) : ℝ) : EReal) = _
  have h1 : (BitVec.ofNat 32 n).toNat = n := by
    rw [BitVec.toNat_ofNat]; exact Nat.mod_eq_of_lt (by omega)
  rw [BitVec.toInt_eq_toNat_of_lt (by rw [h1]; omega), h1]
  norm_cast

theorem ref_posTotal (i : S_.Idx) :
    ReadP.val_main_v57 (F := Ideal) X tg i = ∑ r : Fin 4096, Spec.posSum X tg r := by
  rw [ReadP.val_main_v57_apply, ReadP.val_main_cst_18_apply, Ideal.ofBits_def, Ideal.ofBits_zero_f32, zero_add]
  refine (sum_idx2 _).trans (Finset.sum_congr rfl fun r _ => ?_)
  unfold Spec.posSum
  refine Finset.sum_congr rfl fun s _ => ?_
  rw [ReadP.val_main_v56_apply, ref_pos, ref_dist, ReadP.val_main_call4_v1_apply, ReadP.val_main_call4_v0_apply,
    ReadP.val_main_cst_17_apply, Ideal.ofBits_def, Ideal.ofBits_zero_f32]
  by_cases h : Spec.pos tg r s <;> simp [h, Scalar.select]

theorem ref_negTotal (i : S_.Idx) :
    ReadP.val_main_v63 (F := Ideal) X tg i = ∑ r : Fin 4096, Spec.negSum X tg r := by
  rw [ReadP.val_main_v63_apply, ReadP.val_main_cst_21_apply, Ideal.ofBits_def, Ideal.ofBits_zero_f32, zero_add]
  refine (sum_idx2 _).trans (Finset.sum_congr rfl fun r _ => ?_)
  unfold Spec.negSum
  refine Finset.sum_congr rfl fun s _ => ?_
  rw [ReadP.val_main_v62_apply, ref_neg, ref_dist, ReadP.val_main_call5_v1_apply, ReadP.val_main_call5_v0_apply,
    ReadP.val_main_cst_20_apply, Ideal.ofBits_def, Ideal.ofBits_zero_f32]
  by_cases h : Spec.same tg r s <;> simp [h, Scalar.select]

theorem ref_posCount (i : S_.Idx) :
    ReadP.val_main_v60 (F := Ideal) tg i = ∑ r : Fin 4096, Spec.posCnt tg r := by
  rw [ReadP.val_main_v60_apply]
  unfold ReadP.val_main_v59
  refine (sitofp_reduce_addi (ReadP.val_main_v25 (F := Ideal) tg) _ (fun _ => rfl) _ _ _ rfl i ?_).trans ?_
  · exact lt_of_le_of_lt (Finset.card_le_univ _) (by rw [card_idx2]; norm_num)
  · rw [Finset.filter_true_of_mem (fun j _ => idx0_eq _ _)]
    refine (sum_idx2 _).trans (Finset.sum_congr rfl fun r _ => ?_)
    unfold Spec.posCnt
    refine Finset.sum_congr rfl fun s _ => ?_
    rw [ref_pos]
    by_cases h : Spec.pos tg r s <;> simp [h]

theorem ref_negCount (i : S_.Idx) :
    ReadP.val_main_v66 (F := Ideal) tg i = ∑ r : Fin 4096, Spec.negCnt tg r := by
  rw [ReadP.val_main_v66_apply]
  unfold ReadP.val_main_v65
  refine (sitofp_reduce_addi (ReadP.val_main_v26 (F := Ideal) tg) _ (fun _ => rfl) _ _ _ rfl i ?_).trans ?_
  · exact lt_of_le_of_lt (Finset.card_le_univ _) (by rw [card_idx2]; norm_num)
  · rw [Finset.filter_true_of_mem (fun j _ => idx0_eq _ _)]
    refine (sum_idx2 _).trans (Finset.sum_congr rfl fun r _ => ?_)
    unfold Spec.negCnt
    refine Finset.sum_congr rfl fun s _ => ?_
    rw [ref_neg]
    by_cases h : Spec.same tg r s <;> simp [h]

theorem ref_hardCnt (r : Fin 4096) :
    FloatOps.sitofp (F := Ideal) .f32 (ReadP.val_main_v36 (F := Ideal) X tg (ix1 r)) = Spec.hardCnt X tg r := by
  rw [ref_hardCntInt_card, sitofp_ofNat _ (lt_of_le_of_lt (Finset.card_le_univ _) (by rw [Fintype.card_fin]; norm_num))]
  unfold Spec.hardCnt
  exact card_filter_eq_sum Finset.univ _

theorem ref_hasHard (r : Fin 4096) :
    ReadP.val_main_v44 (F := Ideal) X tg (ix1 r) = 1#1 ↔ 0 < Spec.hardCnt X tg r := by
  rw [ReadP.val_main_v44_apply, ReadP.val_main_v43_apply, ReadP.val_main_c_9_apply, cmpi_sgt_zero, ref_hardCnt]

theorem ref_lossRow (r : Fin 4096) :
    ReadP.val_main_v48 (F := Ideal) X tg (ix1 r) = Spec.lossRow X tg r := by
  rw [ReadP.val_main_v48_apply]
  unfold Spec.lossRow
  by_cases h : 0 < Spec.hardCnt X tg r
  · rw [if_pos h, (ref_hasHard X tg r).2 h, select_one, ReadP.val_main_v47_apply, ReadP.val_main_v45_apply,
      ReadP.val_main_v42_apply, ReadP.val_main_v41_apply, ReadP.val_main_v40_apply, ReadP.val_main_v46_apply,
      ReadP.val_main_cst_10_apply, ReadP.val_main_v39_apply, ReadP.val_main_c_8_apply, sitofp_maxsi_one, ref_hardCnt,
      ref_posMin, ref_hardSum]
    unfold Spec.margin Spec.one
    rw [Ideal.ofBits_one_f32]
    rfl
  · rw [if_neg h, eq_zero_of_ne_one (fun e => h ((ref_hasHard X tg r).1 e)), select_zero,
      ReadP.val_main_call3_v1_apply, ReadP.val_main_call3_v0_apply, ReadP.val_main_cst_11_apply, Ideal.ofBits_def,
      Ideal.ofBits_zero_f32]

theorem ref_hasHardCount (i : S_.Idx) :
    FloatOps.sitofp (F := Ideal) .f32 (ReadP.val_main_v52 (F := Ideal) X tg i)
      = ∑ r : Fin 4096, if 0 < Spec.hardCnt X tg r then (1 : EReal) else 0 := by
  unfold ReadP.val_main_v52
  refine (sitofp_reduce_addi (ReadP.val_main_v44 (F := Ideal) X tg) _ (fun _ => rfl) _ _ _ rfl i ?_).trans ?_
  · exact lt_of_le_of_lt (Finset.card_le_univ _) (by rw [card_idx1]; norm_num)
  · rw [Finset.filter_true_of_mem (fun j _ => idx0_eq _ _)]
    refine (sum_idx1 _).trans (Finset.sum_congr rfl fun r _ => ?_)
    exact if_congr (ref_hasHard X tg r) rfl rfl

theorem ref_loss : ReadP.val_main_v50 (F := Ideal) X tg = fun _ => Spec.loss X tg := by
  funext i
  rw [ReadP.val_main_v50_apply, ReadP.val_main_v49_apply, ReadP.val_main_cst_12_apply, ReadP.val_main_cst_13_apply,
    Ideal.ofBits_def, Ideal.ofBits_def, Ideal.ofBits_zero_f32, zero_add]
  unfold Spec.loss Spec.nRows
  rw [show (∑ j : S4096.Idx, ReadP.val_main_v48 (F := Ideal) X tg j) = ∑ r : Fin 4096, Spec.lossRow X tg r from
    (sum_idx1 _).trans (Finset.sum_congr rfl fun r _ => ref_lossRow X tg r)]
  rfl

theorem ref_prec : ReadP.val_main_v55 (F := Ideal) X tg = fun _ => Spec.prec X tg := by
  funext i
  rw [ReadP.val_main_v55_apply, ReadP.val_main_v54_apply, ReadP.val_main_v53_apply, ref_hasHardCount,
    ReadP.val_main_cst_16_apply, ReadP.val_main_cst_15_apply]
  rfl

theorem ref_posMean : ReadP.val_main_v61 (F := Ideal) X tg = fun _ => Spec.posMean X tg := by
  funext i
  rw [ReadP.val_main_v61_apply, ref_posTotal, ref_posCount]
  rfl

theorem ref_negMean : ReadP.val_main_v67 (F := Ideal) X tg = fun _ => Spec.negMean X tg := by
  funext i
  rw [ReadP.val_main_v67_apply, ref_negTotal, ref_negCount]
  rfl

end Cert.ReferenceIdeal.RefMath

end
-- ==== Proof.lean ====
/-
  Per row, the kernel folds over the sixteen column blocks the nearest same-class distance, the same-class and
  other-class distance sums and counts, and then the count and distance sum of the other-class entries inside the margin
  window; the reference takes the same row statistics from the whole distance matrix. A minimum and a sum do not depend
  on how the columns are grouped, and a count kept as a sum of ones is the integer count, so both programs end with the
  four scalars of Spec; no law used needs finiteness.
-/
import proofs.«105460_j37082747634119_1_alg».proof.Defs
import proofs.«105460_j37082747634119_1_alg».proof.Proof.Gen.Kernel
import proofs.«105460_j37082747634119_1_alg».proof.Proof.Gen.KernelIdeal
import proofs.«105460_j37082747634119_1_alg».proof.Proof.Gen.ReferenceIdeal
import proofs.«105460_j37082747634119_1_alg».proof.Proof.Gen.Pre_finite_inputs
import proofs.«105460_j37082747634119_1_alg».proof.Proof.K.Frame
import proofs.«105460_j37082747634119_1_alg».proof.Proof.KI.KernelValue
import proofs.«105460_j37082747634119_1_alg».proof.Proof.RefSide
import proofs.«105460_j37082747634119_1_alg».proof.Proof.RefMath

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => ⟨(h c).2.2.2.2.1, (h c).2.2.2.2.2⟩)
    (Cert.ReferenceIdeal.RefSide.ref_run m ρ)

theorem algebraic : Cert.algebraic_KernelIdeal_ReferenceIdeal := by
  intro m ρ m' ρ' _ hagree
  refine ⟨fun c => fun _ => Cert.Spec.loss (Cert.KernelIdeal.Hand.argX m c) (Cert.KernelIdeal.Hand.argT m c),
    fun c => fun _ => Cert.Spec.prec (Cert.KernelIdeal.Hand.argX m c) (Cert.KernelIdeal.Hand.argT m c),
    fun c => fun _ => Cert.Spec.posMean (Cert.KernelIdeal.Hand.argX m c) (Cert.KernelIdeal.Hand.argT m c),
    fun c => fun _ => Cert.Spec.negMean (Cert.KernelIdeal.Hand.argX m c) (Cert.KernelIdeal.Hand.argT m c), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v21 (by decide))).trans (Cert.KernelIdeal.Hand.kernel_v21 m c),
      (h c _ (Cert.KernelIdeal.Hand.mem_uc Cert.KernelIdeal.main_v25 (by decide))).trans (Cert.KernelIdeal.Hand.kernel_v25 m c),
      (h c _ (Cert.KernelIdeal.Hand.mem_uc Cert.KernelIdeal.main_v28 (by decide))).trans (Cert.KernelIdeal.Hand.kernel_v28 m c),
      (h c _ (Cert.KernelIdeal.Hand.mem_uc Cert.KernelIdeal.main_v31 (by decide))).trans (Cert.KernelIdeal.Hand.kernel_v31 m c),
      (h c _ (Cert.KernelIdeal.Hand.mem_uc Cert.KernelIdeal.main_arg0 (by decide))).trans (Cert.KernelIdeal.Hand.kernel_arg0 m c),
      (h c _ (Cert.KernelIdeal.Hand.mem_uc Cert.KernelIdeal.main_arg1 (by decide))).trans (Cert.KernelIdeal.Hand.kernel_arg1 m c)⟩
  · refine (θ_run Cert.ReferenceIdeal.defs _ _).mono (fun r h c => ?_) (Cert.ReferenceIdeal.RefSide.ref_run m' ρ')
    obtain ⟨h0, h1, h2, h3, ha0, ha1⟩ := h c
    refine ⟨h0.trans ?_, h1.trans ?_, h2.trans ?_, h3.trans ?_, ha0, ha1⟩
    · rw [(hagree c).1, (hagree c).2]; exact Cert.ReferenceIdeal.RefMath.ref_loss _ _
    · rw [(hagree c).1, (hagree c).2]; exact Cert.ReferenceIdeal.RefMath.ref_prec _ _
    · rw [(hagree c).1, (hagree c).2]; exact Cert.ReferenceIdeal.RefMath.ref_posMean _ _
    · rw [(hagree c).1, (hagree c).2]; exact Cert.ReferenceIdeal.RefMath.ref_negMean _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
